-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "fold_c_268435456_13421773" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) (main_arg2 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Kernel.lean ====
abbrev S4096x256 : Shape := ⟨2, ![4096, 256]⟩
abbrev S4096x1 : Shape := ⟨2, ![4096, 1]⟩
abbrev S1024x256 : Shape := ⟨2, ![1024, 256]⟩
abbrev S1024x1 : Shape := ⟨2, ![1024, 1]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩

abbrev nBuf : Space → Nat
  | .hbm => 14
  | .vmem => 16
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x1, .f32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg1 : BitVec 32 := BitVec.ofNat 32 (i 1).val
  let c1_i32 : BitVec 32 := 1#32
  let v3 : BitVec 1 := Scalar.cmpi .eq arg1 c1_i32
  let arg2 : BitVec 32 := BitVec.ofNat 32 (i 2).val
  let c3_i32 : BitVec 32 := 3#32
  let v4 : BitVec 1 := Scalar.cmpi .eq arg2 c3_i32
  let v5 : BitVec 1 := Scalar.andi v3 v4
  let v56 : BitVec 32 := Scalar.extui v5
  let c0_i32_25 : BitVec 32 := 0#32
  let v57 : BitVec 1 := Scalar.cmpi .ne v56 c0_i32_25
  v57

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c3_i32 : BitVec 32 := 3#32
  let v1 : BitVec 32 := Scalar.select v0 arg2 c3_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 c0_i32_0 arg2
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x256_p1_0_S256x1024 : S1024x256.Transposes [1, 0] S256x1024
  reduces_S1024x1024_S1024 : S1024x1024.Reduces [1] S1024
  broadcasts_S1024x1_S1024x1024 : S1024x1.Broadcasts S1024x1024
  iota_S1024x1024_d0_w32 : S1024x1024.Iotas .tc 32 [0]
  iota_S1024x1024_d1_w32 : S1024x1024.Iotas .tc 32 [1]
  reducesTo_S4096x1_S_d0_1 : S4096x1.ReducesTo [0, 1] S_
  h_S_ : 0 < S_.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .f32 = 32 ∨ (Rect.block (s := S4096x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond3 i == 1#1) | 4 => fun i => !(k0_cond3 i == 1#1) | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S256x4096 : Shape := ⟨2, ![256, 4096]⟩
abbrev S4096x4096 : Shape := ⟨2, ![4096, 4096]⟩
abbrev S4096x8192 : Shape := ⟨2, ![4096, 8192]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x256, .f32⟩
  | .hbm, ⟨32, _⟩ => ⟨S4096x256, .f32⟩
  | .hbm, ⟨33, _⟩ => ⟨S256x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S256x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x8192, .f32⟩
  | .hbm, ⟨44, _⟩ => ⟨S4096, .i32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1, .f32⟩
  | .hbm, ⟨51, _⟩ => ⟨S4096x8192, .f32⟩
  | .hbm, ⟨52, _⟩ => ⟨S4096x8192, .f32⟩
  | .hbm, ⟨53, _⟩ => ⟨S4096x8192, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1, .f32⟩
  | .hbm, ⟨58, _⟩ => ⟨S4096x8192, .f32⟩
  | .hbm, ⟨59, _⟩ => ⟨S4096x8192, .f32⟩
  | .hbm, ⟨60, _⟩ => ⟨S4096x1, .i32⟩
  | .hbm, ⟨61, _⟩ => ⟨S_, .i32⟩
  | .hbm, ⟨62, _⟩ => ⟨S4096x1, .i32⟩
  | .hbm, ⟨63, _⟩ => ⟨S4096x1, .i1⟩
  | .hbm, ⟨64, _⟩ => ⟨S_, .i32⟩
  | .hbm, ⟨65, _⟩ => ⟨S4096x1, .i32⟩
  | .hbm, ⟨66, _⟩ => ⟨S4096x1, .i32⟩
  | .hbm, ⟨67, _⟩ => ⟨S4096x1, .i32⟩
  | .hbm, ⟨68, _⟩ => ⟨S4096x1x1, .i32⟩
  | .hbm, ⟨69, _⟩ => ⟨S1, .i32⟩
  | .hbm, ⟨70, _⟩ => ⟨S_, .i32⟩
  | .hbm, ⟨71, _⟩ => ⟨S4096x1x1, .i32⟩
  | .hbm, ⟨72, _⟩ => ⟨S4096x1x1, .i1⟩
  | .hbm, ⟨73, _⟩ => ⟨S1x1x1, .i32⟩
  | .hbm, ⟨74, _⟩ => ⟨S4096x1x1, .i32⟩
  | .hbm, ⟨75, _⟩ => ⟨S4096x1x1, .i1⟩
  | .hbm, ⟨76, _⟩ => ⟨S4096x1x1, .i1⟩
  | .hbm, ⟨77, _⟩ => ⟨S_, .i1⟩
  | .hbm, ⟨78, _⟩ => ⟨S4096x1, .i1⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_cst : Ref sig .tc := ⟨.hbm, 45, rfl⟩
abbrev main_call0_v0 : Ref sig .tc := ⟨.hbm, 46, rfl⟩
abbrev main_call0_cst_0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_cst_1 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_v34 : Ref sig .tc := ⟨.hbm, 59, rfl⟩
abbrev main_v35 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_cst : Ref sig .tc := ⟨.hbm, 80, rfl⟩
abbrev main_call1_v14 : Ref sig .tc := ⟨.hbm, 81, rfl⟩
abbrev main_v36 : Ref sig .tc := ⟨.hbm, 82, rfl⟩
abbrev main_cst_7 : Ref sig .tc := ⟨.hbm, 83, rfl⟩
abbrev main_v37 : Ref sig .tc := ⟨.hbm, 84, rfl⟩
abbrev main_cst_8 : Ref sig .tc := ⟨.hbm, 85, rfl⟩
abbrev main_v38 : Ref sig .tc := ⟨.hbm, 86, rfl⟩
abbrev main_v39 : Ref sig .tc := ⟨.hbm, 87, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  bcast_S_S4096x4096 : S_.BroadcastsInDim S4096x4096 (![] : Fin 0 → Fin S4096x4096.rank)
  concatenates_S4096x4096_S4096x4096_S4096x8192_d1 : Shape.Concatenates [S4096x4096, S4096x4096] S4096x8192 1
  reducesTo_S4096x8192_S4096_d1 : S4096x8192.ReducesTo [1] S4096
  bcast_S_S4096 : S_.BroadcastsInDim S4096 (![] : Fin 0 → Fin S4096.rank)
  bcast_S4096x1_S4096x8192_0_1 : S4096x1.BroadcastsInDim S4096x8192 (![0, 1] : Fin 2 → Fin S4096x8192.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  dot_S4096x256_S256x4096_S4096x4096_1_0_0_1_n_n_wf : DotDims.WF S4096x256 S256x4096 S4096x4096 [1] [0] [0] [1] [] []
  gather_S4096x8192_S4096x1x1_S4096x1_n_1_0_0_1_2_11_wf : GatherDims.WF S4096x8192 S4096x1x1 S4096x1 [] [1] [0] [1] [0] 2 ![1, 1]

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def gather_S4096x8192_S4096x1x1_S4096x1_n_1_0_0_1_2_11 : GatherDims S4096x8192 S4096x1x1 S4096x1 where
  offsetDims := []
  collapsedSliceDims := [1]
  operandBatchingDims := [0]
  startIndicesBatchingDims := [0]
  startIndexMap := [1]
  indexVectorDim := 2
  sliceSizes := ![1, 1]
  wf := gather_S4096x8192_S4096x1x1_S4096x1_n_1_0_0_1_2_11_wf

class Facts : Prop extends Facts₀ where

variable [Facts]
-- ==== Proof.KernelIdealConds.lean ====
import proofs.«135269_j55619826483436_2_alg».proof.Proof.KernelIdealKit

set_option maxRecDepth 16384

noncomputable section

namespace Cert.KernelIdeal.GenP

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := (Scalar.cmpi .ne (Scalar.extui (Scalar.andi (Scalar.cmpi .eq (BitVec.ofNat 32 (i 1).val) 0#32) (Scalar.andi (Scalar.cmpi .sgt (Scalar.subi (Scalar.muli (BitVec.ofNat 32 (i 0).val) 1024#32) (Scalar.muli (BitVec.ofNat 32 (i 2).val) 1024#32)) 4294966272#32) (Scalar.cmpi .slt (Scalar.subi (Scalar.muli (BitVec.ofNat 32 (i 0).val) 1024#32) (Scalar.muli (BitVec.ofNat 32 (i 2).val) 1024#32)) 1024#32)))) 0#32) = 1#1

theorem hcond0_1 : ∀ t : Fin cfg0.N, cond0_1 (grid0.coords t) ↔ t.val % 9 = 0 :=
  (by decide +kernel : ∀ t : Fin grid0.N, cond0_1 (grid0.coords t) ↔ t.val % 9 = 0)

abbrev cond0_2 (i : grid0.Coords) : Prop := k0_cond3 i = 1#1

theorem hcond0_2 : ∀ t : Fin cfg0.N, cond0_2 (grid0.coords t) ↔ t.val % 8 = 7 :=
  (by decide +kernel : ∀ t : Fin grid0.N, cond0_2 (grid0.coords t) ↔ t.val % 8 = 7)

theorem liveAt0_0 : ∀ t : Fin cfg0.N, cfg0.idle 0 (grid0.coords t) = false := by decide +kernel

theorem liveAt0_1 : ∀ t : Fin cfg0.N, cfg0.idle 1 (grid0.coords t) = false := by decide +kernel

theorem liveAt0_2 : ∀ t : Fin cfg0.N, cfg0.idle 2 (grid0.coords t) = false := by decide +kernel

abbrev VO0_3 : View sig .tc .vmem S1024x1 .f32 := (Memref.whole cc0_stg3_0 : Memref sig .tc .vmem S1024x1 .f32).view

abbrev VO0_4 : View sig .tc .vmem S1024x1 .f32 := (Memref.whole cc0_stg4_0 : Memref sig .tc .vmem S1024x1 .f32).view

abbrev VO0_5 : View sig .tc .vmem S1024x1 .f32 := (Memref.whole cc0_stg5_0 : Memref sig .tc .vmem S1024x1 .f32).view

abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev scM0_3 : Memref sig .tc .vmem S1024x256 .bf16 := Memref.whole cc0_scratch3

abbrev VS0_0 : View sig .tc .vmem S1024x1 .f32 := scM0_0.view

abbrev VS0_1 : View sig .tc .vmem S1024x1 .f32 := scM0_1.view

abbrev VS0_2 : View sig .tc .vmem S1024x1 .f32 := scM0_2.view

abbrev VS0_3 : View sig .tc .vmem S1024x256 .bf16 := scM0_3.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.GenP

end
-- ==== Proof.KernelIdealRunA2.lean ====
import proofs.«135269_j55619826483436_2_alg».proof.Proof.KernelIdealRunA

set_option maxRecDepth 16384

noncomputable section

namespace Cert.KernelIdeal.GenP

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_A2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x256 .bf16) (harg12 : arg12.IsWhole) (hc0 : cond0_0 i) (hc1 : cond0_1 i) (hc2 : ¬cond0_2 i)
    (x0 : Vec F S1024x256 .f32) (x1 : Vec F S1024x256 .f32) (x2 : Vec F S1024x256 .f32) :
    Σ' (L3 : List (View.Piece (Elt F) S1024x1 .f32)), Σ' (L4 : List (View.Piece (Elt F) S1024x1 .f32)), Σ' (L5 : List (View.Piece (Elt F) S1024x1 .f32)), Σ' (LS0 : List (View.Piece (Elt F) S1024x1 .f32)), Σ' (LS1 : List (View.Piece (Elt F) S1024x1 .f32)), Σ' (LS2 : List (View.Piece (Elt F) S1024x1 .f32)), { LS3 : List (View.Piece (Elt F) S1024x256 .bf16) //
      ∀ (xi3 : Vec F S1024x1 .f32) (xi4 : Vec F S1024x1 .f32) (xi5 : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12) K } := by
  refine ⟨[], [], [], ?_, ?_, ?_, ?_, fun xi3 xi4 xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; iexact HS3

end Cert.KernelIdeal.GenP

end
-- ==== Proof.KernelIdealRunB2.lean ====
import proofs.«135269_j55619826483436_2_alg».proof.Proof.KernelIdealRunB

set_option maxRecDepth 16384

noncomputable section

namespace Cert.KernelIdeal.GenP

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in

noncomputable def kernelRun0_B2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x256 .bf16) (harg12 : arg12.IsWhole) (hc0 : ¬cond0_0 i) (hc1 : cond0_1 i) (hc2 : ¬cond0_2 i)
    (x0 : Vec F S1024x256 .f32) (x1 : Vec F S1024x256 .f32) (x2 : Vec F S1024x256 .f32) (xs0 : Vec F S1024x1 .f32) (xs1 : Vec F S1024x1 .f32) (xs2 : Vec F S1024x1 .f32) (xs3 : Vec F S1024x256 .bf16) :
    Σ' (L3 : List (View.Piece (Elt F) S1024x1 .f32)), Σ' (L4 : List (View.Piece (Elt F) S1024x1 .f32)), Σ' (L5 : List (View.Piece (Elt F) S1024x1 .f32)), Σ' (LS0 : List (View.Piece (Elt F) S1024x1 .f32)), Σ' (LS1 : List (View.Piece (Elt F) S1024x1 .f32)), Σ' (LS2 : List (View.Piece (Elt F) S1024x1 .f32)), { LS3 : List (View.Piece (Elt F) S1024x256 .bf16) //
      ∀ (xi3 : Vec F S1024x1 .f32) (xi4 : Vec F S1024x1 .f32) (xi5 : Vec F S1024x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12) K } := by
  refine ⟨[], [], [], ?_, ?_, ?_, [], fun xi3 xi4 xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2; obtain rfl := harg12.eq_unread hfs3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; isplitr; · ipureintro; exact harg12.read_unread _
    iexact HS3

end Cert.KernelIdeal.GenP

end
-- ==== Proof.KernelIdealOuts.lean ====
import proofs.«135269_j55619826483436_2_alg».proof.Proof.KernelIdealRunC

set_option maxRecDepth 16384

noncomputable section

namespace Cert.KernelIdeal.GenP

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem idle0 : ∀ t : Fin cfg0.N, ¬cond0_2 (grid0.coords t) →
    (cfg0.idle 3 (grid0.coords t) = true ∧ (cfg0.win 3).flush t = false) ∧
    (cfg0.idle 4 (grid0.coords t) = true ∧ (cfg0.win 4).flush t = false) ∧
    (cfg0.idle 5 (grid0.coords t) = true ∧ (cfg0.win 5).flush t = false) := by decide +kernel

theorem live0 : ∀ t : Fin cfg0.N, cond0_2 (grid0.coords t) →
    cfg0.idle 3 (grid0.coords t) = false ∧ cfg0.idle 4 (grid0.coords t) = false ∧ cfg0.idle 5 (grid0.coords t) = false := by
  decide +kernel

/-- Placeholder for an output column at the grid points where the kernel does not store it. -/
def unread : Vec F S1024x1 .f32 := VO0_3.read (Elt F) VO0_3.junk

structure Opds where
  a3 : Memref sig .tc .vmem S1024x256 .f32
  h3 : a3.IsWhole
  a4 : Memref sig .tc .vmem S1024x256 .f32
  h4 : a4.IsWhole
  a5 : Memref sig .tc .vmem S1024x256 .f32
  h5 : a5.IsWhole
  a6 : Memref sig .tc .vmem S1024x1 .f32
  h6 : a6.IsWhole
  a7 : Memref sig .tc .vmem S1024x1 .f32
  h7 : a7.IsWhole
  a8 : Memref sig .tc .vmem S1024x1 .f32
  h8 : a8.IsWhole
  a9 : Memref sig .tc .vmem S1024x1 .f32
  h9 : a9.IsWhole
  a10 : Memref sig .tc .vmem S1024x1 .f32
  h10 : a10.IsWhole
  a11 : Memref sig .tc .vmem S1024x1 .f32
  h11 : a11.IsWhole
  a12 : Memref sig .tc .vmem S1024x256 .bf16
  h12 : a12.IsWhole

abbrev opds (t : Fin cfg0.N) : Opds :=
  ⟨ms0_0 t, hs0_0 t, ms0_1 t, hs0_1 t, ms0_2 t, hs0_2 t, ms0_3 t, hs0_3 t, ms0_4 t, hs0_4 t, ms0_5 t, hs0_5 t, scM0_0, Memref.isWhole_whole _, scM0_1, Memref.isWhole_whole _, scM0_2, Memref.isWhole_whole _, scM0_3, Memref.isWhole_whole _⟩

abbrev runA (c : Dev nD) (i : grid0.Coords) (o : Opds) := kernelRun0_A (F := F) c i o.a3 o.h3 o.a4 o.h4 o.a5 o.h5 o.a6 o.h6 o.a7 o.h7 o.a8 o.h8 o.a9 o.h9 o.a10 o.h10 o.a11 o.h11 o.a12 o.h12
abbrev runA2 (c : Dev nD) (i : grid0.Coords) (o : Opds) := kernelRun0_A2 (F := F) c i o.a3 o.h3 o.a4 o.h4 o.a5 o.h5 o.a6 o.h6 o.a7 o.h7 o.a8 o.h8 o.a9 o.h9 o.a10 o.h10 o.a11 o.h11 o.a12 o.h12
abbrev runB (c : Dev nD) (i : grid0.Coords) (o : Opds) := kernelRun0_B (F := F) c i o.a3 o.h3 o.a4 o.h4 o.a5 o.h5 o.a6 o.h6 o.a7 o.h7 o.a8 o.h8 o.a9 o.h9 o.a10 o.h10 o.a11 o.h11 o.a12 o.h12
abbrev runB2 (c : Dev nD) (i : grid0.Coords) (o : Opds) := kernelRun0_B2 (F := F) c i o.a3 o.h3 o.a4 o.h4 o.a5 o.h5 o.a6 o.h6 o.a7 o.h7 o.a8 o.h8 o.a9 o.h9 o.a10 o.h10 o.a11 o.h11 o.a12 o.h12
abbrev runC (c : Dev nD) (i : grid0.Coords) (o : Opds) := kernelRun0_C (F := F) c i o.a3 o.h3 o.a4 o.h4 o.a5 o.h5 o.a6 o.h6 o.a7 o.h7 o.a8 o.h8 o.a9 o.h9 o.a10 o.h10 o.a11 o.h11 o.a12 o.h12

section A
variable (c : Dev nD) (i : grid0.Coords) (o : Opds) (hc0 : cond0_0 i) (hc1 : ¬cond0_1 i) (hc2 : ¬cond0_2 i)
  (x0 x1 x2 : Vec F S1024x256 .f32)

theorem scover0_A_0 (y : S1024x1.Idx) :
    ∃ pc ∈ (runA c i o hc0 hc1 hc2 x0 x1 x2).2.2.2.1, y ∈ pc.1.set :=
  View.cover_of_tiledL (runA c i o hc0 hc1 hc2 x0 x1 x2).2.2.2.1 S1024x1.size (by sl_kernel_rfl) y

def sout0_A_0 : Vec F S1024x1 .f32 :=
  VS0_0.read (Elt F) (VS0_0.writes (Elt F) VS0_0.junk (runA c i o hc0 hc1 hc2 x0 x1 x2).2.2.2.1)

theorem scover0_A_1 (y : S1024x1.Idx) :
    ∃ pc ∈ (runA c i o hc0 hc1 hc2 x0 x1 x2).2.2.2.2.1, y ∈ pc.1.set :=
  View.cover_of_tiledL (runA c i o hc0 hc1 hc2 x0 x1 x2).2.2.2.2.1 S1024x1.size (by sl_kernel_rfl) y

def sout0_A_1 : Vec F S1024x1 .f32 :=
  VS0_1.read (Elt F) (VS0_1.writes (Elt F) VS0_1.junk (runA c i o hc0 hc1 hc2 x0 x1 x2).2.2.2.2.1)

theorem scover0_A_2 (y : S1024x1.Idx) :
    ∃ pc ∈ (runA c i o hc0 hc1 hc2 x0 x1 x2).2.2.2.2.2.1, y ∈ pc.1.set :=
  View.cover_of_tiledL (runA c i o hc0 hc1 hc2 x0 x1 x2).2.2.2.2.2.1 S1024x1.size (by sl_kernel_rfl) y

def sout0_A_2 : Vec F S1024x1 .f32 :=
  VS0_2.read (Elt F) (VS0_2.writes (Elt F) VS0_2.junk (runA c i o hc0 hc1 hc2 x0 x1 x2).2.2.2.2.2.1)

theorem scover0_A_3 (y : S1024x256.Idx) :
    ∃ pc ∈ (runA c i o hc0 hc1 hc2 x0 x1 x2).2.2.2.2.2.2.1, y ∈ pc.1.set :=
  View.cover_of_tiledL (runA c i o hc0 hc1 hc2 x0 x1 x2).2.2.2.2.2.2.1 S1024x256.size (by sl_kernel_rfl) y

def sout0_A_3 : Vec F S1024x256 .bf16 :=
  VS0_3.read (Elt F) (VS0_3.writes (Elt F) VS0_3.junk (runA c i o hc0 hc1 hc2 x0 x1 x2).2.2.2.2.2.2.1)

def outs0_A :=
  (unread (F := F), unread (F := F), unread (F := F), sout0_A_0 c i o hc0 hc1 hc2 x0 x1 x2, sout0_A_1 c i o hc0 hc1 hc2 x0 x1 x2, sout0_A_2 c i o hc0 hc1 hc2 x0 x1 x2, sout0_A_3 c i o hc0 hc1 hc2 x0 x1 x2)

end A

section A2
variable (c : Dev nD) (i : grid0.Coords) (o : Opds) (hc0 : cond0_0 i) (hc1 : cond0_1 i) (hc2 : ¬cond0_2 i)
  (x0 x1 x2 : Vec F S1024x256 .f32)

theorem scover0_A2_0 (y : S1024x1.Idx) :
    ∃ pc ∈ (runA2 c i o hc0 hc1 hc2 x0 x1 x2).2.2.2.1, y ∈ pc.1.set :=
  View.cover_of_tiledL (runA2 c i o hc0 hc1 hc2 x0 x1 x2).2.2.2.1 S1024x1.size (by sl_kernel_rfl) y

def sout0_A2_0 : Vec F S1024x1 .f32 :=
  VS0_0.read (Elt F) (VS0_0.writes (Elt F) VS0_0.junk (runA2 c i o hc0 hc1 hc2 x0 x1 x2).2.2.2.1)

theorem scover0_A2_1 (y : S1024x1.Idx) :
    ∃ pc ∈ (runA2 c i o hc0 hc1 hc2 x0 x1 x2).2.2.2.2.1, y ∈ pc.1.set :=
  View.cover_of_tiledL (runA2 c i o hc0 hc1 hc2 x0 x1 x2).2.2.2.2.1 S1024x1.size (by sl_kernel_rfl) y

def sout0_A2_1 : Vec F S1024x1 .f32 :=
  VS0_1.read (Elt F) (VS0_1.writes (Elt F) VS0_1.junk (runA2 c i o hc0 hc1 hc2 x0 x1 x2).2.2.2.2.1)

theorem scover0_A2_2 (y : S1024x1.Idx) :
    ∃ pc ∈ (runA2 c i o hc0 hc1 hc2 x0 x1 x2).2.2.2.2.2.1, y ∈ pc.1.set :=
  View.cover_of_tiledL (runA2 c i o hc0 hc1 hc2 x0 x1 x2).2.2.2.2.2.1 S1024x1.size (by sl_kernel_rfl) y

def sout0_A2_2 : Vec F S1024x1 .f32 :=
  VS0_2.read (Elt F) (VS0_2.writes (Elt F) VS0_2.junk (runA2 c i o hc0 hc1 hc2 x0 x1 x2).2.2.2.2.2.1)

theorem scover0_A2_3 (y : S1024x256.Idx) :
    ∃ pc ∈ (runA2 c i o hc0 hc1 hc2 x0 x1 x2).2.2.2.2.2.2.1, y ∈ pc.1.set :=
  View.cover_of_tiledL (runA2 c i o hc0 hc1 hc2 x0 x1 x2).2.2.2.2.2.2.1 S1024x256.size (by sl_kernel_rfl) y

def sout0_A2_3 : Vec F S1024x256 .bf16 :=
  VS0_3.read (Elt F) (VS0_3.writes (Elt F) VS0_3.junk (runA2 c i o hc0 hc1 hc2 x0 x1 x2).2.2.2.2.2.2.1)

def outs0_A2 :=
  (unread (F := F), unread (F := F), unread (F := F), sout0_A2_0 c i o hc0 hc1 hc2 x0 x1 x2, sout0_A2_1 c i o hc0 hc1 hc2 x0 x1 x2, sout0_A2_2 c i o hc0 hc1 hc2 x0 x1 x2, sout0_A2_3 c i o hc0 hc1 hc2 x0 x1 x2)

end A2

section B
variable (c : Dev nD) (i : grid0.Coords) (o : Opds) (hc0 : ¬cond0_0 i) (hc1 : ¬cond0_1 i) (hc2 : ¬cond0_2 i)
  (x0 x1 x2 : Vec F S1024x256 .f32) (xs0 xs1 xs2 : Vec F S1024x1 .f32) (xs3 : Vec F S1024x256 .bf16)

theorem scover0_B_0 (y : S1024x1.Idx) :
    ∃ pc ∈ (runB c i o hc0 hc1 hc2 x0 x1 x2 xs0 xs1 xs2 xs3).2.2.2.1, y ∈ pc.1.set :=
  View.cover_of_tiledL (runB c i o hc0 hc1 hc2 x0 x1 x2 xs0 xs1 xs2 xs3).2.2.2.1 S1024x1.size (by sl_kernel_rfl) y

def sout0_B_0 : Vec F S1024x1 .f32 :=
  VS0_0.read (Elt F) (VS0_0.writes (Elt F) VS0_0.junk (runB c i o hc0 hc1 hc2 x0 x1 x2 xs0 xs1 xs2 xs3).2.2.2.1)

theorem scover0_B_1 (y : S1024x1.Idx) :
    ∃ pc ∈ (runB c i o hc0 hc1 hc2 x0 x1 x2 xs0 xs1 xs2 xs3).2.2.2.2.1, y ∈ pc.1.set :=
  View.cover_of_tiledL (runB c i o hc0 hc1 hc2 x0 x1 x2 xs0 xs1 xs2 xs3).2.2.2.2.1 S1024x1.size (by sl_kernel_rfl) y

def sout0_B_1 : Vec F S1024x1 .f32 :=
  VS0_1.read (Elt F) (VS0_1.writes (Elt F) VS0_1.junk (runB c i o hc0 hc1 hc2 x0 x1 x2 xs0 xs1 xs2 xs3).2.2.2.2.1)

def outs0_B :=
  (unread (F := F), unread (F := F), unread (F := F), sout0_B_0 c i o hc0 hc1 hc2 x0 x1 x2 xs0 xs1 xs2 xs3, sout0_B_1 c i o hc0 hc1 hc2 x0 x1 x2 xs0 xs1 xs2 xs3, xs2, xs3)

end B

section B2
variable (c : Dev nD) (i : grid0.Coords) (o : Opds) (hc0 : ¬cond0_0 i) (hc1 : cond0_1 i) (hc2 : ¬cond0_2 i)
  (x0 x1 x2 : Vec F S1024x256 .f32) (xs0 xs1 xs2 : Vec F S1024x1 .f32) (xs3 : Vec F S1024x256 .bf16)

theorem scover0_B2_0 (y : S1024x1.Idx) :
    ∃ pc ∈ (runB2 c i o hc0 hc1 hc2 x0 x1 x2 xs0 xs1 xs2 xs3).2.2.2.1, y ∈ pc.1.set :=
  View.cover_of_tiledL (runB2 c i o hc0 hc1 hc2 x0 x1 x2 xs0 xs1 xs2 xs3).2.2.2.1 S1024x1.size (by sl_kernel_rfl) y

def sout0_B2_0 : Vec F S1024x1 .f32 :=
  VS0_0.read (Elt F) (VS0_0.writes (Elt F) VS0_0.junk (runB2 c i o hc0 hc1 hc2 x0 x1 x2 xs0 xs1 xs2 xs3).2.2.2.1)

theorem scover0_B2_1 (y : S1024x1.Idx) :
    ∃ pc ∈ (runB2 c i o hc0 hc1 hc2 x0 x1 x2 xs0 xs1 xs2 xs3).2.2.2.2.1, y ∈ pc.1.set :=
  View.cover_of_tiledL (runB2 c i o hc0 hc1 hc2 x0 x1 x2 xs0 xs1 xs2 xs3).2.2.2.2.1 S1024x1.size (by sl_kernel_rfl) y

def sout0_B2_1 : Vec F S1024x1 .f32 :=
  VS0_1.read (Elt F) (VS0_1.writes (Elt F) VS0_1.junk (runB2 c i o hc0 hc1 hc2 x0 x1 x2 xs0 xs1 xs2 xs3).2.2.2.2.1)

theorem scover0_B2_2 (y : S1024x1.Idx) :
    ∃ pc ∈ (runB2 c i o hc0 hc1 hc2 x0 x1 x2 xs0 xs1 xs2 xs3).2.2.2.2.2.1, y ∈ pc.1.set :=
  View.cover_of_tiledL (runB2 c i o hc0 hc1 hc2 x0 x1 x2 xs0 xs1 xs2 xs3).2.2.2.2.2.1 S1024x1.size (by sl_kernel_rfl) y

def sout0_B2_2 : Vec F S1024x1 .f32 :=
  VS0_2.read (Elt F) (VS0_2.writes (Elt F) VS0_2.junk (runB2 c i o hc0 hc1 hc2 x0 x1 x2 xs0 xs1 xs2 xs3).2.2.2.2.2.1)

def outs0_B2 :=
  (unread (F := F), unread (F := F), unread (F := F), sout0_B2_0 c i o hc0 hc1 hc2 x0 x1 x2 xs0 xs1 xs2 xs3, sout0_B2_1 c i o hc0 hc1 hc2 x0 x1 x2 xs0 xs1 xs2 xs3, sout0_B2_2 c i o hc0 hc1 hc2 x0 x1 x2 xs0 xs1 xs2 xs3, xs3)

end B2

section C
variable (c : Dev nD) (i : grid0.Coords) (o : Opds) (hc0 : ¬cond0_0 i) (hc1 : ¬cond0_1 i) (hc2 : cond0_2 i)
  (x0 x1 x2 : Vec F S1024x256 .f32) (xs0 xs1 xs2 : Vec F S1024x1 .f32) (xs3 : Vec F S1024x256 .bf16)

theorem cover0_C_3 (y : S1024x1.Idx) :
    ∃ pc ∈ (runC c i o hc0 hc1 hc2 x0 x1 x2 xs0 xs1 xs2 xs3).1, y ∈ pc.1.set :=
  View.cover_of_tiledL (runC c i o hc0 hc1 hc2 x0 x1 x2 xs0 xs1 xs2 xs3).1 S1024x1.size (by sl_kernel_rfl) y

def out0_C_3 : Vec F S1024x1 .f32 :=
  VO0_3.read (Elt F) (VO0_3.writes (Elt F) VO0_3.junk (runC c i o hc0 hc1 hc2 x0 x1 x2 xs0 xs1 xs2 xs3).1)

theorem cover0_C_4 (y : S1024x1.Idx) :
    ∃ pc ∈ (runC c i o hc0 hc1 hc2 x0 x1 x2 xs0 xs1 xs2 xs3).2.1, y ∈ pc.1.set :=
  View.cover_of_tiledL (runC c i o hc0 hc1 hc2 x0 x1 x2 xs0 xs1 xs2 xs3).2.1 S1024x1.size (by sl_kernel_rfl) y

def out0_C_4 : Vec F S1024x1 .f32 :=
  VO0_4.read (Elt F) (VO0_4.writes (Elt F) VO0_4.junk (runC c i o hc0 hc1 hc2 x0 x1 x2 xs0 xs1 xs2 xs3).2.1)

theorem cover0_C_5 (y : S1024x1.Idx) :
    ∃ pc ∈ (runC c i o hc0 hc1 hc2 x0 x1 x2 xs0 xs1 xs2 xs3).2.2.1, y ∈ pc.1.set :=
  View.cover_of_tiledL (runC c i o hc0 hc1 hc2 x0 x1 x2 xs0 xs1 xs2 xs3).2.2.1 S1024x1.size (by sl_kernel_rfl) y

def out0_C_5 : Vec F S1024x1 .f32 :=
  VO0_5.read (Elt F) (VO0_5.writes (Elt F) VO0_5.junk (runC c i o hc0 hc1 hc2 x0 x1 x2 xs0 xs1 xs2 xs3).2.2.1)

theorem scover0_C_0 (y : S1024x1.Idx) :
    ∃ pc ∈ (runC c i o hc0 hc1 hc2 x0 x1 x2 xs0 xs1 xs2 xs3).2.2.2.1, y ∈ pc.1.set :=
  View.cover_of_tiledL (runC c i o hc0 hc1 hc2 x0 x1 x2 xs0 xs1 xs2 xs3).2.2.2.1 S1024x1.size (by sl_kernel_rfl) y

def sout0_C_0 : Vec F S1024x1 .f32 :=
  VS0_0.read (Elt F) (VS0_0.writes (Elt F) VS0_0.junk (runC c i o hc0 hc1 hc2 x0 x1 x2 xs0 xs1 xs2 xs3).2.2.2.1)

theorem scover0_C_1 (y : S1024x1.Idx) :
    ∃ pc ∈ (runC c i o hc0 hc1 hc2 x0 x1 x2 xs0 xs1 xs2 xs3).2.2.2.2.1, y ∈ pc.1.set :=
  View.cover_of_tiledL (runC c i o hc0 hc1 hc2 x0 x1 x2 xs0 xs1 xs2 xs3).2.2.2.2.1 S1024x1.size (by sl_kernel_rfl) y

def sout0_C_1 : Vec F S1024x1 .f32 :=
  VS0_1.read (Elt F) (VS0_1.writes (Elt F) VS0_1.junk (runC c i o hc0 hc1 hc2 x0 x1 x2 xs0 xs1 xs2 xs3).2.2.2.2.1)

def outs0_C :=
  (out0_C_3 c i o hc0 hc1 hc2 x0 x1 x2 xs0 xs1 xs2 xs3, out0_C_4 c i o hc0 hc1 hc2 x0 x1 x2 xs0 xs1 xs2 xs3, out0_C_5 c i o hc0 hc1 hc2 x0 x1 x2 xs0 xs1 xs2 xs3, sout0_C_0 c i o hc0 hc1 hc2 x0 x1 x2 xs0 xs1 xs2 xs3, sout0_C_1 c i o hc0 hc1 hc2 x0 x1 x2 xs0 xs1 xs2 xs3, xs2, xs3)

end C

end Cert.KernelIdeal.GenP

end
-- ==== Proof.KernelIdealFrame.lean ====
import proofs.«135269_j55619826483436_2_alg».proof.Proof.KernelIdealOuts

set_option maxRecDepth 16384

noncomputable section

namespace Cert.KernelIdeal.GenP

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

def outsAt0 (c : Dev nD) : (n : ℕ) → n < cfg0.N → Vec F S1024x1 .f32 × Vec F S1024x1 .f32 × Vec F S1024x1 .f32 × Vec F S1024x1 .f32 × Vec F S1024x1 .f32 × Vec F S1024x1 .f32 × Vec F S1024x256 .bf16
  | 0, hn => outs0_A2 c (grid0.coords ⟨0, hn⟩) (opds ⟨0, hn⟩) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩)
  | n + 1, hn =>
    if h0 : (n + 1) % 8 = 0 then
      if h1 : (n + 1) % 9 = 0 then
        False.elim (by have hN : n + 1 < 32 := lt_of_lt_of_eq hn (show cfg0.N = 32 from N_0); omega)
      else
        outs0_A c (grid0.coords ⟨n + 1, hn⟩) (opds ⟨n + 1, hn⟩) ((hcond0_0 ⟨n + 1, hn⟩).mpr h0) (fun h => h1 ((hcond0_1 ⟨n + 1, hn⟩).mp h)) (fun h => (fun h' => by have hN : n + 1 < 32 := lt_of_lt_of_eq hn (show cfg0.N = 32 from N_0); (try dsimp only at h'); omega) ((hcond0_2 ⟨n + 1, hn⟩).mp h)) (iblk m c 0 ⟨n + 1, hn⟩) (iblk m c 1 ⟨n + 1, hn⟩) (iblk m c 2 ⟨n + 1, hn⟩)
    else
      if h2 : (n + 1) % 8 = 7 then
        outs0_C c (grid0.coords ⟨n + 1, hn⟩) (opds ⟨n + 1, hn⟩) (fun h => h0 ((hcond0_0 ⟨n + 1, hn⟩).mp h)) (fun h => (fun h' => by have hN : n + 1 < 32 := lt_of_lt_of_eq hn (show cfg0.N = 32 from N_0); (try dsimp only at h'); omega) ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2
      else
        if h1 : (n + 1) % 9 = 0 then
          outs0_B2 c (grid0.coords ⟨n + 1, hn⟩) (opds ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2
        else
          outs0_B c (grid0.coords ⟨n + 1, hn⟩) (opds ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2

theorem outsAt0_A (c : Dev nD) (t : Fin cfg0.N) (h0 : t.val % 8 = 0) (h1 : ¬t.val % 9 = 0) (h2 : ¬t.val % 8 = 7) :
    outsAt0 m c t.val t.isLt = outs0_A c (grid0.coords t) (opds t) ((hcond0_0 t).mpr h0) (fun h => h1 ((hcond0_1 t).mp h)) (fun h => h2 ((hcond0_2 t).mp h)) (iblk m c 0 t) (iblk m c 1 t) (iblk m c 2 t) := by
  obtain ⟨n, hn⟩ := t
  cases n with
  | zero => exact (by exfalso; (try dsimp only at h1); exact absurd (Nat.zero_mod _) h1)
  | succ n => exact (dif_pos h0).trans ((dif_neg h1).trans rfl)

theorem outsAt0_A2 (c : Dev nD) (t : Fin cfg0.N) (h0 : t.val % 8 = 0) (h1 : t.val % 9 = 0) (h2 : ¬t.val % 8 = 7) :
    outsAt0 m c t.val t.isLt = outs0_A2 c (grid0.coords t) (opds t) ((hcond0_0 t).mpr h0) ((hcond0_1 t).mpr h1) (fun h => h2 ((hcond0_2 t).mp h)) (iblk m c 0 t) (iblk m c 1 t) (iblk m c 2 t) := by
  obtain ⟨n, hn⟩ := t
  cases n with
  | zero => exact rfl
  | succ n => exact (by exfalso; have hN : n + 1 < 32 := lt_of_lt_of_eq hn (show cfg0.N = 32 from N_0); (try dsimp only at h0 h1); omega)

theorem outsAt0_B (c : Dev nD) (t : Fin cfg0.N) (h0 : ¬t.val % 8 = 0) (h1 : ¬t.val % 9 = 0) (h2 : ¬t.val % 8 = 7) :
    outsAt0 m c t.val t.isLt = outs0_B c (grid0.coords t) (opds t) (fun h => h0 ((hcond0_0 t).mp h)) (fun h => h1 ((hcond0_1 t).mp h)) (fun h => h2 ((hcond0_2 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_neg h2).trans ((dif_neg h1).trans rfl))

theorem outsAt0_B2 (c : Dev nD) (t : Fin cfg0.N) (h0 : ¬t.val % 8 = 0) (h1 : t.val % 9 = 0) (h2 : ¬t.val % 8 = 7) :
    outsAt0 m c t.val t.isLt = outs0_B2 c (grid0.coords t) (opds t) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_neg h2).trans ((dif_pos h1).trans rfl))

theorem outsAt0_C (c : Dev nD) (t : Fin cfg0.N) (h0 : ¬t.val % 8 = 0) (h1 : ¬t.val % 9 = 0) (h2 : t.val % 8 = 7) :
    outsAt0 m c t.val t.isLt = outs0_C c (grid0.coords t) (opds t) (fun h => h0 ((hcond0_0 t).mp h)) (fun h => h1 ((hcond0_1 t).mp h)) ((hcond0_2 t).mpr h2) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_pos h2).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2.1) ∗ owns (c : Thread nD τ) scM0_3 fullShare ((outsAt0 m c (n - 1) (by omega)).2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h2 : t.val % 8 = 7
  · have h0 : ¬t.val % 8 = 0 := by omega
    have h1 : ¬t.val % 9 = 0 := by omega
    have hz : ¬t.val = 0 := by omega
    obtain ⟨l3, l4, l5⟩ := live0 t ((hcond0_2 t).mpr h2)
    rw [show (dats m 0 c).leavesExact 3 t = owns (c : Thread nD τ) (ms0_3 t) fullShare ((dats m 0 c).after 3 t) from by
      unfold Dat.leavesExact; rw [l3], after0_3]
    rw [show (dats m 0 c).leavesExact 4 t = owns (c : Thread nD τ) (ms0_4 t) fullShare ((dats m 0 c).after 4 t) from by
      unfold Dat.leavesExact; rw [l4], after0_4]
    rw [show (dats m 0 c).leavesExact 5 t = owns (c : Thread nD τ) (ms0_5 t) fullShare ((dats m 0 c).after 5 t) from by
      unfold Dat.leavesExact; rw [l5], after0_5]
    rw [outsAt0_C m c t h0 h1 h2]
    unfold outs0_C out0_C_3 out0_C_4 out0_C_5 sout0_C_0 sout0_C_1; (try dsimp only)
    rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
    iapply ((runC c (grid0.coords t) (opds t) (fun h => h0 ((hcond0_0 t).mp h)) (fun h => h1 ((hcond0_1 t).mp h)) ((hcond0_2 t).mpr h2) (iblk m c 0 t) (iblk m c 1 t) (iblk m c 2 t) _ _ _ _).2.2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    iintro ⟨H0, H1, H2, ⟨%e3, H3⟩, ⟨%e4, H4⟩, ⟨%e5, H5⟩, ⟨%es0, HS0⟩, ⟨%es1, HS1⟩, HS2, HS3⟩
    isplitl [HS0 HS1 HS2 HS3 Hg]
    · isplitl [HS0 HS1 HS2 HS3]
      · isplitl [HS0]
        · unfold owns; iexists _; isplitr
          swap; · iexact HS0
          ipureintro; exact View.read_writes_of_cover _ _ _ _ _ (scover0_C_0 c _ (opds t) _ _ _ _ _ _ _ _ _ _)
        isplitl [HS1]
        · unfold owns; iexists _; isplitr
          swap; · iexact HS1
          ipureintro; exact View.read_writes_of_cover _ _ _ _ _ (scover0_C_1 c _ (opds t) _ _ _ _ _ _ _ _ _ _)
        isplitl [HS2]
        · iexact HS2
        iexact HS3
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_C_3 c _ (opds t) _ _ _ _ _ _ _ _ _ _)
    isplitl [H4]
    · unfold owns; iexists _; isplitr
      swap; · iexact H4
      ipureintro; exact View.read_writes_of_cover _ _ _ _ _ (cover0_C_4 c _ (opds t) _ _ _ _ _ _ _ _ _ _)
    unfold owns; iexists _; isplitr
    swap; · iexact H5
    ipureintro; exact View.read_writes_of_cover _ _ _ _ _ (cover0_C_5 c _ (opds t) _ _ _ _ _ _ _ _ _ _)
  · obtain ⟨⟨i3, f3⟩, ⟨i4, f4⟩, ⟨i5, f5⟩⟩ := idle0 t fun h => h2 ((hcond0_2 t).mp h)
    rw [Dat.leavesExact_idle (dats m 0 c) 3 t i3 f3, Dat.leavesExact_idle (dats m 0 c) 4 t i4 f4,
      Dat.leavesExact_idle (dats m 0 c) 5 t i5 f5]
    by_cases h0 : t.val % 8 = 0
    · by_cases h1 : t.val % 9 = 0
      · have hz : t.val = 0 := by omega
        rw [outsAt0_A2 m c t h0 h1 h2]
        unfold outs0_A2 sout0_A2_0 sout0_A2_1 sout0_A2_2 sout0_A2_3; (try dsimp only)
        rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((runA2 c (grid0.coords t) (opds t) ((hcond0_0 t).mpr h0) ((hcond0_1 t).mpr h1) (fun h => h2 ((hcond0_2 t).mp h)) (iblk m c 0 t) (iblk m c 1 t) (iblk m c 2 t)).2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A2_0 c _ (opds t) _ _ _ _ _ _)
            isplitl [HS1]
            · unfold owns; iexists _; isplitr
              swap; · iexact HS1
              ipureintro; exact View.read_writes_of_cover _ _ _ _ _ (scover0_A2_1 c _ (opds t) _ _ _ _ _ _)
            isplitl [HS2]
            · unfold owns; iexists _; isplitr
              swap; · iexact HS2
              ipureintro; exact View.read_writes_of_cover _ _ _ _ _ (scover0_A2_2 c _ (opds t) _ _ _ _ _ _)
            unfold owns; iexists _; isplitr
            swap; · iexact HS3
            ipureintro; exact View.read_writes_of_cover _ _ _ _ _ (scover0_A2_3 c _ (opds t) _ _ _ _ _ _)
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5
      · have hz : ¬t.val = 0 := by omega
        rw [outsAt0_A m c t h0 h1 h2]
        unfold outs0_A sout0_A_0 sout0_A_1 sout0_A_2 sout0_A_3; (try dsimp only)
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((runA c (grid0.coords t) (opds t) ((hcond0_0 t).mpr h0) (fun h => h1 ((hcond0_1 t).mp h)) (fun h => h2 ((hcond0_2 t).mp h)) (iblk m c 0 t) (iblk m c 1 t) (iblk m c 2 t)).2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        isplitl [HS3]; · iexists _; iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ (opds t) _ _ _ _ _ _)
            isplitl [HS1]
            · unfold owns; iexists _; isplitr
              swap; · iexact HS1
              ipureintro; exact View.read_writes_of_cover _ _ _ _ _ (scover0_A_1 c _ (opds t) _ _ _ _ _ _)
            isplitl [HS2]
            · unfold owns; iexists _; isplitr
              swap; · iexact HS2
              ipureintro; exact View.read_writes_of_cover _ _ _ _ _ (scover0_A_2 c _ (opds t) _ _ _ _ _ _)
            unfold owns; iexists _; isplitr
            swap; · iexact HS3
            ipureintro; exact View.read_writes_of_cover _ _ _ _ _ (scover0_A_3 c _ (opds t) _ _ _ _ _ _)
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5
    · have hz : ¬t.val = 0 := by omega
      by_cases h1 : t.val % 9 = 0
      · rw [outsAt0_B2 m c t h0 h1 h2]
        unfold outs0_B2 sout0_B2_0 sout0_B2_1 sout0_B2_2; (try dsimp only)
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((runB2 c (grid0.coords t) (opds t) (fun h => h0 ((hcond0_0 t).mp h)) ((hcond0_1 t).mpr h1) (fun h => h2 ((hcond0_2 t).mp h)) (iblk m c 0 t) (iblk m c 1 t) (iblk m c 2 t) _ _ _ _).2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, HS3⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_B2_0 c _ (opds t) _ _ _ _ _ _ _ _ _ _)
            isplitl [HS1]
            · unfold owns; iexists _; isplitr
              swap; · iexact HS1
              ipureintro; exact View.read_writes_of_cover _ _ _ _ _ (scover0_B2_1 c _ (opds t) _ _ _ _ _ _ _ _ _ _)
            isplitl [HS2]
            · unfold owns; iexists _; isplitr
              swap; · iexact HS2
              ipureintro; exact View.read_writes_of_cover _ _ _ _ _ (scover0_B2_2 c _ (opds t) _ _ _ _ _ _ _ _ _ _)
            iexact HS3
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5
      · rw [outsAt0_B m c t h0 h1 h2]
        unfold outs0_B sout0_B_0 sout0_B_1; (try dsimp only)
        rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((runB c (grid0.coords t) (opds t) (fun h => h0 ((hcond0_0 t).mp h)) (fun h => h1 ((hcond0_1 t).mp h)) (fun h => h2 ((hcond0_2 t).mp h)) (iblk m c 0 t) (iblk m c 1 t) (iblk m c 2 t) _ _ _ _).2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, HS2, HS3⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_B_0 c _ (opds t) _ _ _ _ _ _ _ _ _ _)
            isplitl [HS1]
            · unfold owns; iexists _; isplitr
              swap; · iexact HS1
              ipureintro; exact View.read_writes_of_cover _ _ _ _ _ (scover0_B_1 c _ (opds t) _ _ _ _ _ _ _ _ _ _)
            isplitl [HS2]
            · iexact HS2
            iexact HS3
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.GenP

end
-- ==== Proof.KernelIdealStep.lean ====
import proofs.«135269_j55619826483436_2_alg».proof.Proof.Gen.KernelIdeal.Skeleton

noncomputable section

namespace Cert.KernelIdeal.Step

open Idealize.ShloMosaic Idealize.SL.Sem Cert.KernelIdeal Cert.KernelIdeal.Gen

variable {F : FTy → Type} [FloatOps F] [Named F]

/-- The running maximum after one more block of scores, from the maximum `mp` before it. -/
def stepM (i : grid0.Coords) (x1 x2 : Vec F S1024x256 .f32) (zq : Vec F S1024x256 .bf16)
    (mp : Vec F S1024x1 .f32) : Vec F S1024x1 .f32 :=
  k0_pay2 (k0_pay9 i x1 x2 zq mp)

/-- The running sum after one more block, rescaled from the old maximum to the new one. -/
def stepL (i : grid0.Coords) (x1 x2 : Vec F S1024x256 .f32) (zq : Vec F S1024x256 .bf16)
    (mp lp : Vec F S1024x1 .f32) : Vec F S1024x1 .f32 :=
  k0_pay1 (k0_pay10 i x1 x2 zq mp) (k0_pay11 i x1 x2 zq mp) lp

/-- The diagonal accumulator after adding the block's diagonal scores. -/
def stepD (i : grid0.Coords) (x1 x2 : Vec F S1024x256 .f32) (zq : Vec F S1024x256 .bf16)
    (dp : Vec F S1024x1 .f32) : Vec F S1024x1 .f32 :=
  k0_pay3 (BitVec.ofNat 32 (i 0).val) (BitVec.ofNat 32 (i 2).val) (k0_pay8 i x1 x2 zq) dp

abbrev Carried (F : FTy → Type) : Type :=
  Vec F S1024x1 .f32 × Vec F S1024x1 .f32 × Vec F S1024x1 .f32 × Vec F S1024x256 .bf16

/-- One grid point's update of the carried maximum, sum, diagonal accumulator and normalised query block. -/
def next (i : grid0.Coords) (onDiag : Prop) [Decidable onDiag] (x1 x2 : Vec F S1024x256 .f32) (p : Carried F) : Carried F :=
  (stepM i x1 x2 p.2.2.2 p.1, stepL i x1 x2 p.2.2.2 p.1 p.2.1,
    if onDiag then stepD i x1 x2 p.2.2.2 p.2.2.1 else p.2.2.1, p.2.2.2)

/-- What a row of tiles starts from: maximum `−∞`, sum and accumulator zero, the query block normalised. -/
def start (x0 : Vec F S1024x256 .f32) : Carried F := (k0_pay5, k0_pay6, k0_pay7, k0_pay4 x0)

end Cert.KernelIdeal.Step

end
-- ==== Proof.KernelIdealPieces.lean ====
import proofs.«135269_j55619826483436_2_alg».proof.Proof.KernelIdealOuts
import proofs.«135269_j55619826483436_2_alg».proof.Proof.KernelIdealStep
import Idealize.ShloMosaic.Lib.Pipeline.Value

set_option maxRecDepth 16384

noncomputable section

namespace Cert.KernelIdeal.GenP

open Cert.KernelIdeal.Gen Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem hz2 : (![0, 0] : Fin 2 → Nat) = fun _ => 0 := funext fun a => by fin_cases a <;> rfl

section A
variable (c : Dev nD) (i : grid0.Coords) (o : Opds) (hc0 : cond0_0 i) (hc1 : ¬cond0_1 i) (hc2 : ¬cond0_2 i)
  (x0 x1 x2 : Vec F S1024x256 .f32)

theorem sout0_A_0_eq :
    sout0_A_0 c i o hc0 hc1 hc2 x0 x1 x2 = stepM i x1 x2 (k0_pay4 x0) k0_pay5 := by
  unfold stepM
  unfold sout0_A_0
  rw [View.read_writes_eq_canon _ _ _ (scover0_A_0 c i o hc0 hc1 hc2 x0 x1 x2)]
  unfold runA kernelRun0_A
  dsimp only
  sl_unfold_words
  rw [View.canon_cons_unit_zero (S := S1024x1) hz2]
  simp only [View.readAt_eq_ld, o.h3.read_unread, o.h4.read_unread, o.h5.read_unread, View.ld_unit_zero (S := S1024x256) hz2, View.ld_unit_zero (S := S1024x1) hz2, View.readCov_unit_zero (S := S1024x1) _ hz2, View.readCov_unit_zero (S := S1024x256) _ hz2]

theorem sout0_A_1_eq :
    sout0_A_1 c i o hc0 hc1 hc2 x0 x1 x2 = stepL i x1 x2 (k0_pay4 x0) k0_pay5 k0_pay6 := by
  unfold stepL
  unfold sout0_A_1
  rw [View.read_writes_eq_canon _ _ _ (scover0_A_1 c i o hc0 hc1 hc2 x0 x1 x2)]
  unfold runA kernelRun0_A
  dsimp only
  sl_unfold_words
  rw [View.canon_cons_unit_zero (S := S1024x1) hz2]
  simp only [View.readAt_eq_ld, o.h3.read_unread, o.h4.read_unread, o.h5.read_unread, View.ld_unit_zero (S := S1024x256) hz2, View.ld_unit_zero (S := S1024x1) hz2, View.readCov_unit_zero (S := S1024x1) _ hz2, View.readCov_unit_zero (S := S1024x256) _ hz2]

theorem sout0_A_2_eq :
    sout0_A_2 c i o hc0 hc1 hc2 x0 x1 x2 = k0_pay7 := by
  unfold sout0_A_2
  rw [View.read_writes_eq_canon _ _ _ (scover0_A_2 c i o hc0 hc1 hc2 x0 x1 x2)]
  unfold runA kernelRun0_A
  dsimp only
  sl_unfold_words
  rw [View.canon_unit_zero (S := S1024x1) hz2]

theorem sout0_A_3_eq :
    sout0_A_3 c i o hc0 hc1 hc2 x0 x1 x2 = k0_pay4 x0 := by
  unfold sout0_A_3
  rw [View.read_writes_eq_canon _ _ _ (scover0_A_3 c i o hc0 hc1 hc2 x0 x1 x2)]
  unfold runA kernelRun0_A
  dsimp only
  sl_unfold_words
  rw [View.canon_unit_zero (S := S1024x256) hz2]
  simp only [View.readAt_eq_ld, o.h3.read_unread, o.h4.read_unread, o.h5.read_unread, View.ld_unit_zero (S := S1024x256) hz2, View.ld_unit_zero (S := S1024x1) hz2, View.readCov_unit_zero (S := S1024x1) _ hz2, View.readCov_unit_zero (S := S1024x256) _ hz2]

end A

section A2
variable (c : Dev nD) (i : grid0.Coords) (o : Opds) (hc0 : cond0_0 i) (hc1 : cond0_1 i) (hc2 : ¬cond0_2 i)
  (x0 x1 x2 : Vec F S1024x256 .f32)

theorem sout0_A2_0_eq :
    sout0_A2_0 c i o hc0 hc1 hc2 x0 x1 x2 = stepM i x1 x2 (k0_pay4 x0) k0_pay5 := by
  unfold stepM
  unfold sout0_A2_0
  rw [View.read_writes_eq_canon _ _ _ (scover0_A2_0 c i o hc0 hc1 hc2 x0 x1 x2)]
  unfold runA2 kernelRun0_A2
  dsimp only
  sl_unfold_words
  rw [View.canon_cons_unit_zero (S := S1024x1) hz2]
  simp only [View.readAt_eq_ld, o.h3.read_unread, o.h4.read_unread, o.h5.read_unread, View.ld_unit_zero (S := S1024x256) hz2, View.ld_unit_zero (S := S1024x1) hz2, View.readCov_unit_zero (S := S1024x1) _ hz2, View.readCov_unit_zero (S := S1024x256) _ hz2]

theorem sout0_A2_1_eq :
    sout0_A2_1 c i o hc0 hc1 hc2 x0 x1 x2 = stepL i x1 x2 (k0_pay4 x0) k0_pay5 k0_pay6 := by
  unfold stepL
  unfold sout0_A2_1
  rw [View.read_writes_eq_canon _ _ _ (scover0_A2_1 c i o hc0 hc1 hc2 x0 x1 x2)]
  unfold runA2 kernelRun0_A2
  dsimp only
  sl_unfold_words
  rw [View.canon_cons_unit_zero (S := S1024x1) hz2]
  simp only [View.readAt_eq_ld, o.h3.read_unread, o.h4.read_unread, o.h5.read_unread, View.ld_unit_zero (S := S1024x256) hz2, View.ld_unit_zero (S := S1024x1) hz2, View.readCov_unit_zero (S := S1024x1) _ hz2, View.readCov_unit_zero (S := S1024x256) _ hz2]

theorem sout0_A2_2_eq :
    sout0_A2_2 c i o hc0 hc1 hc2 x0 x1 x2 = stepD i x1 x2 (k0_pay4 x0) k0_pay7 := by
  unfold stepD
  unfold sout0_A2_2
  rw [View.read_writes_eq_canon _ _ _ (scover0_A2_2 c i o hc0 hc1 hc2 x0 x1 x2)]
  unfold runA2 kernelRun0_A2
  dsimp only
  sl_unfold_words
  rw [View.canon_cons_unit_zero (S := S1024x1) hz2]
  simp only [View.readAt_eq_ld, o.h3.read_unread, o.h4.read_unread, o.h5.read_unread, View.ld_unit_zero (S := S1024x256) hz2, View.ld_unit_zero (S := S1024x1) hz2, View.readCov_unit_zero (S := S1024x1) _ hz2, View.readCov_unit_zero (S := S1024x256) _ hz2]

theorem sout0_A2_3_eq :
    sout0_A2_3 c i o hc0 hc1 hc2 x0 x1 x2 = k0_pay4 x0 := by
  unfold sout0_A2_3
  rw [View.read_writes_eq_canon _ _ _ (scover0_A2_3 c i o hc0 hc1 hc2 x0 x1 x2)]
  unfold runA2 kernelRun0_A2
  dsimp only
  sl_unfold_words
  rw [View.canon_unit_zero (S := S1024x256) hz2]
  simp only [View.readAt_eq_ld, o.h3.read_unread, o.h4.read_unread, o.h5.read_unread, View.ld_unit_zero (S := S1024x256) hz2, View.ld_unit_zero (S := S1024x1) hz2, View.readCov_unit_zero (S := S1024x1) _ hz2, View.readCov_unit_zero (S := S1024x256) _ hz2]

end A2

section B
variable (c : Dev nD) (i : grid0.Coords) (o : Opds) (hc0 : ¬cond0_0 i) (hc1 : ¬cond0_1 i) (hc2 : ¬cond0_2 i)
  (x0 x1 x2 : Vec F S1024x256 .f32) (xs0 xs1 xs2 : Vec F S1024x1 .f32) (xs3 : Vec F S1024x256 .bf16)

theorem sout0_B_0_eq :
    sout0_B_0 c i o hc0 hc1 hc2 x0 x1 x2 xs0 xs1 xs2 xs3 = stepM i x1 x2 xs3 xs0 := by
  unfold stepM
  unfold sout0_B_0
  rw [View.read_writes_eq_canon _ _ _ (scover0_B_0 c i o hc0 hc1 hc2 x0 x1 x2 xs0 xs1 xs2 xs3)]
  unfold runB kernelRun0_B
  dsimp only
  sl_unfold_words
  rw [View.canon_unit_zero (S := S1024x1) hz2]
  simp only [View.readAt_eq_ld, o.h3.read_unread, o.h4.read_unread, o.h5.read_unread, o.h9.read_unread, o.h10.read_unread, o.h11.read_unread, o.h12.read_unread, View.ld_unit_zero (S := S1024x256) hz2, View.ld_unit_zero (S := S1024x1) hz2, View.readCov_unit_zero (S := S1024x1) _ hz2, View.readCov_unit_zero (S := S1024x256) _ hz2]

theorem sout0_B_1_eq :
    sout0_B_1 c i o hc0 hc1 hc2 x0 x1 x2 xs0 xs1 xs2 xs3 = stepL i x1 x2 xs3 xs0 xs1 := by
  unfold stepL
  unfold sout0_B_1
  rw [View.read_writes_eq_canon _ _ _ (scover0_B_1 c i o hc0 hc1 hc2 x0 x1 x2 xs0 xs1 xs2 xs3)]
  unfold runB kernelRun0_B
  dsimp only
  sl_unfold_words
  rw [View.canon_unit_zero (S := S1024x1) hz2]
  simp only [View.readAt_eq_ld, o.h3.read_unread, o.h4.read_unread, o.h5.read_unread, o.h9.read_unread, o.h10.read_unread, o.h11.read_unread, o.h12.read_unread, View.ld_unit_zero (S := S1024x256) hz2, View.ld_unit_zero (S := S1024x1) hz2, View.readCov_unit_zero (S := S1024x1) _ hz2, View.readCov_unit_zero (S := S1024x256) _ hz2]

end B

section B2
variable (c : Dev nD) (i : grid0.Coords) (o : Opds) (hc0 : ¬cond0_0 i) (hc1 : cond0_1 i) (hc2 : ¬cond0_2 i)
  (x0 x1 x2 : Vec F S1024x256 .f32) (xs0 xs1 xs2 : Vec F S1024x1 .f32) (xs3 : Vec F S1024x256 .bf16)

theorem sout0_B2_0_eq :
    sout0_B2_0 c i o hc0 hc1 hc2 x0 x1 x2 xs0 xs1 xs2 xs3 = stepM i x1 x2 xs3 xs0 := by
  unfold stepM
  unfold sout0_B2_0
  rw [View.read_writes_eq_canon _ _ _ (scover0_B2_0 c i o hc0 hc1 hc2 x0 x1 x2 xs0 xs1 xs2 xs3)]
  unfold runB2 kernelRun0_B2
  dsimp only
  sl_unfold_words
  rw [View.canon_unit_zero (S := S1024x1) hz2]
  simp only [View.readAt_eq_ld, o.h3.read_unread, o.h4.read_unread, o.h5.read_unread, o.h9.read_unread, o.h10.read_unread, o.h11.read_unread, o.h12.read_unread, View.ld_unit_zero (S := S1024x256) hz2, View.ld_unit_zero (S := S1024x1) hz2, View.readCov_unit_zero (S := S1024x1) _ hz2, View.readCov_unit_zero (S := S1024x256) _ hz2]

theorem sout0_B2_1_eq :
    sout0_B2_1 c i o hc0 hc1 hc2 x0 x1 x2 xs0 xs1 xs2 xs3 = stepL i x1 x2 xs3 xs0 xs1 := by
  unfold stepL
  unfold sout0_B2_1
  rw [View.read_writes_eq_canon _ _ _ (scover0_B2_1 c i o hc0 hc1 hc2 x0 x1 x2 xs0 xs1 xs2 xs3)]
  unfold runB2 kernelRun0_B2
  dsimp only
  sl_unfold_words
  rw [View.canon_unit_zero (S := S1024x1) hz2]
  simp only [View.readAt_eq_ld, o.h3.read_unread, o.h4.read_unread, o.h5.read_unread, o.h9.read_unread, o.h10.read_unread, o.h11.read_unread, o.h12.read_unread, View.ld_unit_zero (S := S1024x256) hz2, View.ld_unit_zero (S := S1024x1) hz2, View.readCov_unit_zero (S := S1024x1) _ hz2, View.readCov_unit_zero (S := S1024x256) _ hz2]

theorem sout0_B2_2_eq :
    sout0_B2_2 c i o hc0 hc1 hc2 x0 x1 x2 xs0 xs1 xs2 xs3 = stepD i x1 x2 xs3 xs2 := by
  unfold stepD
  unfold sout0_B2_2
  rw [View.read_writes_eq_canon _ _ _ (scover0_B2_2 c i o hc0 hc1 hc2 x0 x1 x2 xs0 xs1 xs2 xs3)]
  unfold runB2 kernelRun0_B2
  dsimp only
  sl_unfold_words
  rw [View.canon_unit_zero (S := S1024x1) hz2]
  simp only [View.readAt_eq_ld, o.h3.read_unread, o.h4.read_unread, o.h5.read_unread, o.h9.read_unread, o.h10.read_unread, o.h11.read_unread, o.h12.read_unread, View.ld_unit_zero (S := S1024x256) hz2, View.ld_unit_zero (S := S1024x1) hz2, View.readCov_unit_zero (S := S1024x1) _ hz2, View.readCov_unit_zero (S := S1024x256) _ hz2]

end B2

section C
variable (c : Dev nD) (i : grid0.Coords) (o : Opds) (hc0 : ¬cond0_0 i) (hc1 : ¬cond0_1 i) (hc2 : cond0_2 i)
  (x0 x1 x2 : Vec F S1024x256 .f32) (xs0 xs1 xs2 : Vec F S1024x1 .f32) (xs3 : Vec F S1024x256 .bf16)

theorem sout0_C_0_eq :
    sout0_C_0 c i o hc0 hc1 hc2 x0 x1 x2 xs0 xs1 xs2 xs3 = stepM i x1 x2 xs3 xs0 := by
  unfold stepM
  unfold sout0_C_0
  rw [View.read_writes_eq_canon _ _ _ (scover0_C_0 c i o hc0 hc1 hc2 x0 x1 x2 xs0 xs1 xs2 xs3)]
  unfold runC kernelRun0_C
  dsimp only
  sl_unfold_words
  rw [View.canon_unit_zero (S := S1024x1) hz2]
  simp only [View.readAt_eq_ld, o.h3.read_unread, o.h4.read_unread, o.h5.read_unread, o.h9.read_unread, o.h10.read_unread, o.h11.read_unread, o.h12.read_unread, View.ld_unit_zero (S := S1024x256) hz2, View.ld_unit_zero (S := S1024x1) hz2, View.readCov_unit_zero (S := S1024x1) _ hz2, View.readCov_unit_zero (S := S1024x256) _ hz2]

theorem sout0_C_1_eq :
    sout0_C_1 c i o hc0 hc1 hc2 x0 x1 x2 xs0 xs1 xs2 xs3 = stepL i x1 x2 xs3 xs0 xs1 := by
  unfold stepL
  unfold sout0_C_1
  rw [View.read_writes_eq_canon _ _ _ (scover0_C_1 c i o hc0 hc1 hc2 x0 x1 x2 xs0 xs1 xs2 xs3)]
  unfold runC kernelRun0_C
  dsimp only
  sl_unfold_words
  rw [View.canon_unit_zero (S := S1024x1) hz2]
  simp only [View.readAt_eq_ld, o.h3.read_unread, o.h4.read_unread, o.h5.read_unread, o.h9.read_unread, o.h10.read_unread, o.h11.read_unread, o.h12.read_unread, View.ld_unit_zero (S := S1024x256) hz2, View.ld_unit_zero (S := S1024x1) hz2, View.readCov_unit_zero (S := S1024x1) _ hz2, View.readCov_unit_zero (S := S1024x256) _ hz2]

theorem out0_C_3_eq :
    out0_C_3 c i o hc0 hc1 hc2 x0 x1 x2 xs0 xs1 xs2 xs3 = stepM i x1 x2 xs3 xs0 := by
  unfold stepM
  unfold out0_C_3
  rw [View.read_writes_eq_canon _ _ _ (cover0_C_3 c i o hc0 hc1 hc2 x0 x1 x2 xs0 xs1 xs2 xs3)]
  unfold runC kernelRun0_C
  dsimp only
  sl_unfold_words
  rw [View.canon_unit_zero (S := S1024x1) hz2]
  simp only [View.readAt_eq_ld, o.h3.read_unread, o.h4.read_unread, o.h5.read_unread, o.h9.read_unread, o.h10.read_unread, o.h11.read_unread, o.h12.read_unread, View.ld_unit_zero (S := S1024x256) hz2, View.ld_unit_zero (S := S1024x1) hz2, View.readCov_unit_zero (S := S1024x1) _ hz2, View.readCov_unit_zero (S := S1024x256) _ hz2]

theorem out0_C_4_eq :
    out0_C_4 c i o hc0 hc1 hc2 x0 x1 x2 xs0 xs1 xs2 xs3 = stepL i x1 x2 xs3 xs0 xs1 := by
  unfold stepL
  unfold out0_C_4
  rw [View.read_writes_eq_canon _ _ _ (cover0_C_4 c i o hc0 hc1 hc2 x0 x1 x2 xs0 xs1 xs2 xs3)]
  unfold runC kernelRun0_C
  dsimp only
  sl_unfold_words
  rw [View.canon_unit_zero (S := S1024x1) hz2]
  simp only [View.readAt_eq_ld, o.h3.read_unread, o.h4.read_unread, o.h5.read_unread, o.h9.read_unread, o.h10.read_unread, o.h11.read_unread, o.h12.read_unread, View.ld_unit_zero (S := S1024x256) hz2, View.ld_unit_zero (S := S1024x1) hz2, View.readCov_unit_zero (S := S1024x1) _ hz2, View.readCov_unit_zero (S := S1024x256) _ hz2]

theorem out0_C_5_eq :
    out0_C_5 c i o hc0 hc1 hc2 x0 x1 x2 xs0 xs1 xs2 xs3 = xs2 := by
  unfold out0_C_5
  rw [View.read_writes_eq_canon _ _ _ (cover0_C_5 c i o hc0 hc1 hc2 x0 x1 x2 xs0 xs1 xs2 xs3)]
  unfold runC kernelRun0_C
  dsimp only
  sl_unfold_words
  rw [View.canon_unit_zero (S := S1024x1) hz2]
  simp only [View.readAt_eq_ld, o.h3.read_unread, o.h4.read_unread, o.h5.read_unread, o.h9.read_unread, o.h10.read_unread, o.h11.read_unread, o.h12.read_unread, View.ld_unit_zero (S := S1024x256) hz2, View.ld_unit_zero (S := S1024x1) hz2, View.readCov_unit_zero (S := S1024x1) _ hz2, View.readCov_unit_zero (S := S1024x256) _ hz2]

end C

end Cert.KernelIdeal.GenP

end
-- ==== Proof.KernelIdealCarried.lean ====
import proofs.«135269_j55619826483436_2_alg».proof.Proof.KernelIdealFrame
import proofs.«135269_j55619826483436_2_alg».proof.Proof.KernelIdealPieces

set_option maxRecDepth 16384

noncomputable section

namespace Cert.KernelIdeal.GenP

open Cert.KernelIdeal.Gen Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ)

def carriedAt (c : Dev nD) (n : ℕ) (hn : n < cfg0.N) : Step.Carried F :=
  ((outsAt0 m c n hn).2.2.2.1, (outsAt0 m c n hn).2.2.2.2.1, (outsAt0 m c n hn).2.2.2.2.2.1, (outsAt0 m c n hn).2.2.2.2.2.2)

theorem carriedAt_first (c : Dev nD) (t : Fin cfg0.N) (h0 : t.val % 8 = 0) :
    carriedAt m c t.val t.isLt = Step.next (grid0.coords t) (t.val % 9 = 0) (iblk m c 1 t) (iblk m c 2 t) (Step.start (iblk m c 0 t)) := by
  have hN : t.val < 32 := lt_of_lt_of_eq t.isLt (show cfg0.N = 32 from N_0)
  have h2 : ¬ t.val % 8 = 7 := by omega
  unfold carriedAt
  by_cases h1 : t.val % 9 = 0
  · rw [outsAt0_A2 m c t h0 h1 h2]; dsimp only [outs0_A2]
    simp only [Step.next, Step.start, if_pos h1]
    rw [sout0_A2_0_eq,
      sout0_A2_1_eq,
      sout0_A2_2_eq,
      sout0_A2_3_eq]
  · rw [outsAt0_A m c t h0 h1 h2]; dsimp only [outs0_A]
    simp only [Step.next, Step.start, if_neg h1]
    rw [sout0_A_0_eq,
      sout0_A_1_eq,
      sout0_A_2_eq,
      sout0_A_3_eq]

theorem carriedAt_next (c : Dev nD) (t : Fin cfg0.N) (h0 : ¬ t.val % 8 = 0) :
    carriedAt m c t.val t.isLt = Step.next (grid0.coords t) (t.val % 9 = 0) (iblk m c 1 t) (iblk m c 2 t)
      (carriedAt m c (t.val - 1) (Nat.lt_of_le_of_lt (Nat.sub_le _ _) t.isLt)) := by
  have hN : t.val < 32 := lt_of_lt_of_eq t.isLt (show cfg0.N = 32 from N_0)
  unfold carriedAt
  by_cases h2 : t.val % 8 = 7
  · have h1 : ¬ t.val % 9 = 0 := by omega
    rw [outsAt0_C m c t h0 h1 h2]; dsimp only [outs0_C]
    simp only [Step.next, if_neg h1]
    rw [sout0_C_0_eq,
      sout0_C_1_eq]
  · by_cases h1 : t.val % 9 = 0
    · rw [outsAt0_B2 m c t h0 h1 h2]; dsimp only [outs0_B2]
      simp only [Step.next, if_pos h1]
      rw [sout0_B2_0_eq,
        sout0_B2_1_eq,
        sout0_B2_2_eq]
    · rw [outsAt0_B m c t h0 h1 h2]; dsimp only [outs0_B]
      simp only [Step.next, if_neg h1]
      rw [sout0_B_0_eq,
        sout0_B_1_eq]

theorem outs_last (c : Dev nD) (t : Fin cfg0.N) (h2 : t.val % 8 = 7) :
    (outsAt0 m c t.val t.isLt).1 = (carriedAt m c t.val t.isLt).1 ∧ (outsAt0 m c t.val t.isLt).2.1 = (carriedAt m c t.val t.isLt).2.1
      ∧ (outsAt0 m c t.val t.isLt).2.2.1 = (carriedAt m c t.val t.isLt).2.2.1 := by
  have hN : t.val < 32 := lt_of_lt_of_eq t.isLt (show cfg0.N = 32 from N_0)
  have h0 : ¬ t.val % 8 = 0 := by omega
  have h1 : ¬ t.val % 9 = 0 := by omega
  unfold carriedAt
  rw [outsAt0_C m c t h0 h1 h2]; dsimp only [outs0_C]
  rw [out0_C_3_eq,
    out0_C_4_eq,
    out0_C_5_eq,
    sout0_C_0_eq,
    sout0_C_1_eq]
  exact ⟨rfl, rfl, rfl⟩

end Cert.KernelIdeal.GenP

end
-- ==== Proof.Spec.lean ====
import Idealize.ShloMosaic.PureOps.Ideal
import Idealize.ShloMosaic.Lib.ValueIdx

noncomputable section

namespace Cert.InfoNCE

open Idealize.ShloMosaic Idealize.ShloMosaic.ValueIdx

abbrev Rows := (⟨2, ![4096, 256]⟩ : Shape).Idx → EReal

/-- The length of row `i`, or `ε` if that is larger. -/
def nrm (ε : EReal) (x : Rows) (i : Fin 4096) : EReal :=
  max (Ideal.sqrt (∑ k : Fin 256, x (ix2 i k) * x (ix2 i k))) ε

/-- Row `i` divided by its clamped norm, at entry `k`. -/
def unitv (ε : EReal) (x : Rows) (i : Fin 4096) (k : Fin 256) : EReal :=
  Ideal.div (x (ix2 i k)) (nrm ε x i)

/-- Scaled inner product of two normalised rows. -/
def sim (ε α : EReal) (x y : Rows) (i j : Fin 4096) : EReal :=
  (∑ k : Fin 256, unitv ε x i k * unitv ε y j k) * α

/-- Row `i`'s 8192 logits: against the rows of `x2`, then of `x3`. -/
def logit (ε α : EReal) (x1 x2 x3 : Rows) (i : Fin 4096) (j : Fin 8192) : EReal :=
  if h : j.val < 4096 then sim ε α x1 x2 i ⟨j.val, h⟩ else sim ε α x1 x3 i ⟨j.val - 4096, by omega⟩

def rowMax (ε α : EReal) (x1 x2 x3 : Rows) (i : Fin 4096) : EReal :=
  Finset.univ.sup (logit ε α x1 x2 x3 i)

def rowSum (ε α : EReal) (x1 x2 x3 : Rows) (i : Fin 4096) : EReal :=
  ∑ j : Fin 8192, Ideal.exp (logit ε α x1 x2 x3 i j - rowMax ε α x1 x2 x3 i)

/-- Column `c` of the `b`-th block of 1024 columns. -/
def blk (f : Fin 8192 → EReal) (b : Fin 8) (c : Fin 1024) : EReal := f ⟨1024 * b.val + c.val, by omega⟩

/-- Running maximum `m` and sum `Σ exp (f j − m)` over the first `n` blocks, the sum rescaled whenever the maximum moves. -/
def online (f : Fin 8192 → EReal) : (n : ℕ) → n ≤ 8 → EReal × EReal
  | 0, _ => (⊥, 0)
  | n + 1, h =>
    let p := online f n (Nat.le_of_succ_le h)
    let m' := max p.1 (Finset.univ.sup (blk f ⟨n, h⟩))
    (m', Ideal.exp (p.1 - m') * p.2 + ∑ c : Fin 1024, Ideal.exp (blk f ⟨n, h⟩ c - m'))

/-- Minus the mean of `logit i i − (m + log l)` with `(m, l)` the running pair after all eight blocks. -/
def lossOnline (ε α n : EReal) (x1 x2 x3 : Rows) : EReal :=
  -(Ideal.div (∑ i : Fin 4096, (logit ε α x1 x2 x3 i ⟨i.val, by omega⟩
      - ((online (logit ε α x1 x2 x3 i) 8 le_rfl).1 + Ideal.log (online (logit ε α x1 x2 x3 i) 8 le_rfl).2))) n)

/-- Minus the mean of `(logit i i − max) − log Σ_j exp (logit i j − max)`. -/
def lossRef (ε α n : EReal) (x1 x2 x3 : Rows) : EReal :=
  -(Ideal.div (∑ i : Fin 4096, ((logit ε α x1 x2 x3 i ⟨i.val, by omega⟩ - rowMax ε α x1 x2 x3 i)
      - Ideal.log (rowSum ε α x1 x2 x3 i))) n)

end Cert.InfoNCE

end
-- ==== Proof.KernelIdealBlocks.lean ====
import proofs.«135269_j55619826483436_2_alg».proof.Proof.KernelIdealKit
import proofs.«135269_j55619826483436_2_alg».proof.Proof.Spec
import Idealize.ShloMosaic.Lib.ValueIdx

set_option maxRecDepth 16384

noncomputable section

namespace Cert.KernelIdeal.Blocks

open Idealize.ShloMosaic Idealize.ShloMosaic.ValueIdx Idealize.ShloMosaic.TcCoe Idealize.SL.Sem
open Cert.KernelIdeal Cert.KernelIdeal.Gen Cert.KernelIdeal.GenP Cert.InfoNCE

variable (m : (ℓ : Loc nD τ sig) → Buf (Elt Ideal) ℓ) (c : Dev nD)

abbrev X1 : Rows := m ((c : Thread nD τ).loc main_arg0)
abbrev X2 : Rows := m ((c : Thread nD τ).loc main_arg1)
abbrev X3 : Rows := m ((c : Thread nD τ).loc main_arg2)

theorem coords_val : ∀ t : Fin cfg0.N, (grid0.coords t 0).val = t.val / 8 ∧ (grid0.coords t 1).val = t.val % 8 / 4
    ∧ (grid0.coords t 2).val = t.val % 4 :=
  (by decide +kernel : ∀ t : Fin grid0.N, _)

theorem idx_in : ∀ t : Fin cfg0.N,
    win0_0.index t (0 : Fin 2) = t.val / 8 ∧ win0_0.index t (1 : Fin 2) = 0
    ∧ win0_1.index t (0 : Fin 2) = (if t.val % 8 < 4 then t.val % 8 else 3) ∧ win0_1.index t (1 : Fin 2) = 0
    ∧ win0_2.index t (0 : Fin 2) = (if t.val % 8 < 4 then 0 else t.val % 8 - 4) ∧ win0_2.index t (1 : Fin 2) = 0 :=
  (by decide +kernel : ∀ t : Fin grid0.N, _)

theorem blk0_at (t : Fin cfg0.N) (r : Fin 1024) (k : Fin 256) :
    (iblk m c 0 t : Vec Ideal S1024x256 .f32) (ix2 r k)
      = X1 m c (ix2 (⟨1024 * (t.val / 8) + r.val, by have := t.isLt; have : cfg0.N = 32 := N_0; omega⟩ : Fin 4096) k) := by
  obtain ⟨e0, e1, -, -, -, -⟩ := idx_in t
  show V m c main_arg0 (((cfg0.win 0).blk t).view.emb (ix2 r k)) = _
  refine congrArg (m ((c : Thread nD τ).loc main_arg0)) ?_
  funext a; apply Fin.ext
  match a with
  | ⟨0, _⟩ => show win0_0.index t (0 : Fin 2) * 1024 + 1 * r.val = 1024 * (t.val / 8) + r.val; omega
  | ⟨1, _⟩ => show win0_0.index t (1 : Fin 2) * 256 + 1 * k.val = k.val; omega

theorem blk1_at (t : Fin cfg0.N) (r : Fin 1024) (k : Fin 256) (h4 : t.val % 8 < 4) :
    (iblk m c 1 t : Vec Ideal S1024x256 .f32) (ix2 r k)
      = X2 m c (ix2 (⟨1024 * (t.val % 8) + r.val, by omega⟩ : Fin 4096) k) := by
  obtain ⟨-, -, e0, e1, -, -⟩ := idx_in t
  rw [if_pos h4] at e0
  show V m c main_arg1 (((cfg0.win 1).blk t).view.emb (ix2 r k)) = _
  refine congrArg (m ((c : Thread nD τ).loc main_arg1)) ?_
  funext a; apply Fin.ext
  match a with
  | ⟨0, _⟩ => show win0_1.index t (0 : Fin 2) * 1024 + 1 * r.val = 1024 * (t.val % 8) + r.val; omega
  | ⟨1, _⟩ => show win0_1.index t (1 : Fin 2) * 256 + 1 * k.val = k.val; omega

theorem blk2_at (t : Fin cfg0.N) (r : Fin 1024) (k : Fin 256) (h4 : 4 ≤ t.val % 8) :
    (iblk m c 2 t : Vec Ideal S1024x256 .f32) (ix2 r k)
      = X3 m c (ix2 (⟨1024 * (t.val % 8 - 4) + r.val, by omega⟩ : Fin 4096) k) := by
  obtain ⟨-, -, -, -, e0, e1⟩ := idx_in t
  rw [if_neg (by omega)] at e0
  show V m c main_arg2 (((cfg0.win 2).blk t).view.emb (ix2 r k)) = _
  refine congrArg (m ((c : Thread nD τ).loc main_arg2)) ?_
  funext a; apply Fin.ext
  match a with
  | ⟨0, _⟩ => show win0_2.index t (0 : Fin 2) * 1024 + 1 * r.val = 1024 * (t.val % 8 - 4) + r.val; omega
  | ⟨1, _⟩ => show win0_2.index t (1 : Fin 2) * 256 + 1 * k.val = k.val; omega

end Cert.KernelIdeal.Blocks

end
-- ==== Proof.KernelIdealStepAt.lean ====
import proofs.«135269_j55619826483436_2_alg».proof.Proof.KernelIdealStep
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.StepAt

open Idealize.ShloMosaic Idealize.ShloMosaic.ValueIdx Idealize.SL.Sem Cert.KernelIdeal Cert.KernelIdeal.Gen Cert.KernelIdeal.Step

abbrev ε : EReal := Ideal.ofBits .f32 0x2B8CBCCC#32

abbrev α : EReal := Named.named (F := Ideal) κ "fold_c_268435456_13421773" (φ := .f32) 0x41A00000#32

theorem alpha_eq : α = ((268435456 / 13421773 : ℝ) : EReal) :=
  IdealRules.named_const.ideal_named_scalar _ _ _ _ rfl

def bnrm (x : Vec Ideal S1024x256 .f32) (r : Fin 1024) : EReal :=
  max (Ideal.sqrt (∑ k : Fin 256, x (ix2 r k) * x (ix2 r k))) ε

def bunit (x : Vec Ideal S1024x256 .f32) (r : Fin 1024) (k : Fin 256) : EReal :=
  Ideal.div (x (ix2 r k)) (bnrm x r)

/-- The scaled inner product of a query row with a normalised key row, the key block chosen by the point's second coordinate. -/
def score (i : grid0.Coords) (x1 x2 : Vec Ideal S1024x256 .f32) (zq : Vec Ideal S1024x256 .bf16) (r c : Fin 1024) : EReal :=
  (∑ k : Fin 256, zq (ix2 r k) * bunit (if (i 1).val = 0 then x1 else x2) c k) * α

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

section Reductions

/-- A sum over the columns, at row r, is the sum of that row. -/
theorem multiReduction_add_row {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ v 0x00000000#32 h hφ hacc (ix1 r) = ∑ k : Fin b, v (ix2 r k) := by
  refine (Ideal.multiReduction_add_single v _ h hφ hacc (ix1 r)).trans ?_
  refine Finset.sum_congr rfl fun k _ => congrArg v (funext fun c => Fin.ext ?_)
  match c with
  | ⟨0, _⟩ => rfl
  | ⟨1, _⟩ => rfl

theorem ofBits_neg_inf : Ideal.ofBits .f32 0xFF800000#32 = ⊥ := by simp [Ideal.ofBits, Ideal.ieee]

theorem fold_max_bot_eq_sup {ι : Type} [Fintype ι] (f : ι → EReal) :
    (Finset.univ : Finset ι).fold max ⊥ f = Finset.univ.sup f := rfl

theorem multiReduction_max_row {a b : ℕ} (v : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction (F := Ideal) .maximumf [1] ⟨1, ![a]⟩ v 0xFF800000#32 h hφ hacc (ix1 r)
      = Finset.univ.sup fun c : Fin b => v (ix2 r c) := by
  refine (Ideal.multiReduction_maximumf_single v _ h hφ hacc (ix1 r)).trans ?_
  show (Finset.univ : Finset (Fin b)).fold max (Ideal.ofBits .f32 0xFF800000#32) _ = _
  rw [ofBits_neg_inf, ← fold_max_bot_eq_sup]
  refine congrArg (fun f => (Finset.univ : Finset (Fin b)).fold max ⊥ f) (funext fun k => congrArg v (funext fun c => Fin.ext ?_))
  match c with
  | ⟨0, _⟩ => rfl
  | ⟨1, _⟩ => rfl

end Reductions

section Matmul

theorem lhs_mm_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem rhs_mm_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- A block product into zero, at (r, c), is the sum over k of A (r, k) · B (k, c). -/
theorem matmul_at (A : FVec Ideal S1024x256 .bf16) (B : FVec Ideal S256x1024 .bf16) (r c : Fin 1024) :
    matmul dot_S1024x256_S256x1024_S1024x1024_1_0_0_1_n_n none A B (constant (F := Ideal) S1024x1024 .f32 0x00000000#32) (ix2 r c)
      = ∑ k : Fin 256, A (ix2 r k) * B (ix2 k c) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 r c) ((ValueIdx.contrEquiv1 dot_S1024x256_S256x1024_S1024x1024_1_0_0_1_n_n 256 rfl rfl).symm k) = ix2 r k := funext fun a => Fin.ext (by
    match a with
    | ⟨0, _⟩ => exact lhs_mm_0 _ _
    | ⟨1, _⟩ => exact (dot_S1024x256_S256x1024_S1024x1024_1_0_0_1_n_n.lhsIdx_val_of_single rfl _ _).trans hk)
  have er : dot_S1024x256_S256x1024_S1024x1024_1_0_0_1_n_n.rhsIdx (ix2 r c) ((ValueIdx.contrEquiv1 dot_S1024x256_S256x1024_S1024x1024_1_0_0_1_n_n 256 rfl rfl).symm k) = ix2 k c := funext fun a => Fin.ext (by
    match a with
    | ⟨0, _⟩ => exact (dot_S1024x256_S256x1024_S1024x1024_1_0_0_1_n_n.rhsIdx_val_of_single rfl _ _).trans hk
    | ⟨1, _⟩ => exact rhs_mm_1 _ _)
  rw [el, er]

end Matmul

section Tile

def normed (x : FVec Ideal S1024x256 .f32) : FVec Ideal S1024x256 .f32 :=
  divf x (broadcastTo S1024x256
    (maximumf (sqrt (shapeCast S1024x1 (multiReduction (F := Ideal) .add [1] S1024 (mulf x x) 0x00000000#32 reduces_S1024x256_S1024 (.inl rfl) rfl) shapeCasts_S1024_S1024x1))
      (broadcast S1024x1 (Scalar.ofBits (F := Ideal) .f32 0x2B8CBCCC#32)))
    broadcasts_S1024x1_S1024x256)

theorem normed_at (x : FVec Ideal S1024x256 .f32) (r : Fin 1024) (k : Fin 256) : normed x (ix2 r k) = bunit x r k := by
  unfold normed bunit bnrm
  show Ideal.div (x (ix2 r k)) (broadcastTo S1024x256 _ broadcasts_S1024x1_S1024x256 (ix2 r k)) = _
  rw [broadcastTo_a1_ab_apply (a := 1024) (b := 256)]
  show Ideal.div (x (ix2 r k)) (max (Ideal.sqrt (shapeCast S1024x1 _ shapeCasts_S1024_S1024x1 (ix2 r (0 : Fin 1)))) ε) = _
  rw [shapeCast_a_a1_apply (a := 1024)]
  exact congrArg (fun s => Ideal.div (x (ix2 r k)) (max (Ideal.sqrt s) ε)) (multiReduction_add_row (a := 1024) (b := 256) _ _ _ _ r)

def keyBlock (i : grid0.Coords) (x1 x2 : FVec Ideal S1024x256 .f32) : FVec Ideal S1024x256 .f32 :=
  Scalar.select (Scalar.cmpi .eq (BitVec.ofNat 32 (i 1).val) 0#32) x1 x2

theorem keyBlock_eq (i : grid0.Coords) (x1 x2 : FVec Ideal S1024x256 .f32) :
    keyBlock i x1 x2 = if (i 1).val = 0 then x1 else x2 := by
  unfold keyBlock
  have h2 : (i 1).val < 2 := (i 1).isLt
  rcases Nat.lt_or_ge (i 1).val 1 with h | h
  · have h0 : (i 1).val = 0 := by omega
    rw [h0, if_pos rfl]; rfl
  · have h1 : (i 1).val = 1 := by omega
    rw [h1, if_neg (by decide)]; rfl

theorem pay8_at (i : grid0.Coords) (x1 x2 : Vec Ideal S1024x256 .f32) (zq : Vec Ideal S1024x256 .bf16) (r c : Fin 1024) :
    k0_pay8 (F := Ideal) i x1 x2 zq (ix2 r c) = score i x1 x2 zq r c := by
  unfold score
  refine (congrArg (· * α) (matmul_at zq (transpose S256x1024 [1, 0] (truncf .bf16 (normed (keyBlock i x1 x2)) bitsLt_bf16_f32) transposes_S1024x256_p1_0_S256x1024) r c)).trans ?_
  refine congrArg (· * α) (Finset.sum_congr rfl fun k _ => congrArg (zq (ix2 r k) * ·) ?_)
  refine (transpose_ix2_apply _ _ k c).trans ?_
  show normed (keyBlock i x1 x2) (ix2 c k) = _
  rw [normed_at, keyBlock_eq]

end Tile

section Rows

theorem pay9_eq (i : grid0.Coords) (x1 x2 : FVec Ideal S1024x256 .f32) (zq : FVec Ideal S1024x256 .bf16)
    (mp : FVec Ideal S1024x1 .f32) :
    k0_pay9 (F := Ideal) i x1 x2 zq mp
      = maximumf mp (shapeCast S1024x1 (multiReduction (F := Ideal) .maximumf [1] S1024 (k0_pay8 (F := Ideal) i x1 x2 zq) 0xFF800000#32 reduces_S1024x1024_S1024 (.inl rfl) rfl) shapeCasts_S1024_S1024x1) := rfl

theorem pay9_at (i : grid0.Coords) (x1 x2 : Vec Ideal S1024x256 .f32) (zq : Vec Ideal S1024x256 .bf16)
    (mp : Vec Ideal S1024x1 .f32) (r : Fin 1024) :
    k0_pay9 (F := Ideal) i x1 x2 zq mp (ix2 r (0 : Fin 1))
      = max (mp (ix2 r (0 : Fin 1))) (Finset.univ.sup fun c : Fin 1024 => score i x1 x2 zq r c) := by
  rw [pay9_eq]
  refine (maximumf_apply _ _ _).trans ?_
  rw [shapeCast_a_a1_apply (a := 1024)]
  refine congrArg (max _) ((multiReduction_max_row (a := 1024) (b := 1024) _ _ _ _ r).trans ?_)
  exact congrArg (Finset.univ.sup) (funext fun c => pay8_at i x1 x2 zq r c)

theorem stepM_at (i : grid0.Coords) (x1 x2 : Vec Ideal S1024x256 .f32) (zq : Vec Ideal S1024x256 .bf16)
    (mp : Vec Ideal S1024x1 .f32) (r : Fin 1024) :
    stepM (F := Ideal) i x1 x2 zq mp (ix2 r (0 : Fin 1))
      = max (mp (ix2 r (0 : Fin 1))) (Finset.univ.sup fun c : Fin 1024 => score i x1 x2 zq r c) := by
  have e : stepM (F := Ideal) i x1 x2 zq mp
      = shapeCast S1024x1 (k0_pay9 (F := Ideal) i x1 x2 zq mp) shapeCasts_S1024x1_S1024x1 := rfl
  rw [e, shapeCast_self]
  exact pay9_at i x1 x2 zq mp r

theorem pay10_at (i : grid0.Coords) (x1 x2 : Vec Ideal S1024x256 .f32) (zq : Vec Ideal S1024x256 .bf16)
    (mp : Vec Ideal S1024x1 .f32) (r : Fin 1024) :
    k0_pay10 (F := Ideal) i x1 x2 zq mp (ix2 r (0 : Fin 1))
      = Ideal.exp (mp (ix2 r (0 : Fin 1)) - max (mp (ix2 r (0 : Fin 1))) (Finset.univ.sup fun c : Fin 1024 => score i x1 x2 zq r c)) := by
  show Ideal.exp (mp (ix2 r (0 : Fin 1)) - k0_pay9 (F := Ideal) i x1 x2 zq mp (ix2 r (0 : Fin 1))) = _
  rw [pay9_at]

theorem pay11_at (i : grid0.Coords) (x1 x2 : Vec Ideal S1024x256 .f32) (zq : Vec Ideal S1024x256 .bf16)
    (mp : Vec Ideal S1024x1 .f32) (r c : Fin 1024) :
    k0_pay11 (F := Ideal) i x1 x2 zq mp (ix2 r c)
      = Ideal.exp (score i x1 x2 zq r c - max (mp (ix2 r (0 : Fin 1))) (Finset.univ.sup fun c : Fin 1024 => score i x1 x2 zq r c)) := by
  show Ideal.exp (k0_pay8 (F := Ideal) i x1 x2 zq (ix2 r c)
    - broadcastTo S1024x1024 (k0_pay9 (F := Ideal) i x1 x2 zq mp) broadcasts_S1024x1_S1024x1024 (ix2 r c)) = _
  rw [broadcastTo_a1_ab_apply (a := 1024) (b := 1024), pay9_at, pay8_at]

theorem pay1_eq (v31 : FVec Ideal S1024x1 .f32) (v34 : FVec Ideal S1024x1024 .f32) (v35 : FVec Ideal S1024x1 .f32) :
    k0_pay1 (F := Ideal) v31 v34 v35
      = shapeCast S1024x1 (addf (mulf v31 v35) (shapeCast S1024x1
          (multiReduction (F := Ideal) .add [1] S1024 v34 0x00000000#32 reduces_S1024x1024_S1024 (.inl rfl) rfl) shapeCasts_S1024_S1024x1))
        shapeCasts_S1024x1_S1024x1 := rfl

theorem pay1_at (v31 : FVec Ideal S1024x1 .f32) (v34 : FVec Ideal S1024x1024 .f32) (v35 : FVec Ideal S1024x1 .f32) (r : Fin 1024) :
    k0_pay1 (F := Ideal) v31 v34 v35 (ix2 r (0 : Fin 1))
      = v31 (ix2 r (0 : Fin 1)) * v35 (ix2 r (0 : Fin 1)) + ∑ c : Fin 1024, v34 (ix2 r c) := by
  rw [pay1_eq, shapeCast_self]
  refine (addf_apply _ _ _).trans ?_
  rw [shapeCast_a_a1_apply (a := 1024)]
  exact congrArg₂ (· + ·) (mulf_apply _ _ _) (multiReduction_add_row (a := 1024) (b := 1024) _ _ _ _ r)

/-- The running sum rescaled to the new maximum, plus the block's exponentials. -/
theorem stepL_at (i : grid0.Coords) (x1 x2 : Vec Ideal S1024x256 .f32) (zq : Vec Ideal S1024x256 .bf16)
    (mp lp : Vec Ideal S1024x1 .f32) (r : Fin 1024) :
    stepL (F := Ideal) i x1 x2 zq mp lp (ix2 r (0 : Fin 1))
      = Ideal.exp (mp (ix2 r (0 : Fin 1)) - max (mp (ix2 r (0 : Fin 1))) (Finset.univ.sup fun c : Fin 1024 => score i x1 x2 zq r c))
          * lp (ix2 r (0 : Fin 1))
        + ∑ c : Fin 1024, Ideal.exp (score i x1 x2 zq r c
            - max (mp (ix2 r (0 : Fin 1))) (Finset.univ.sup fun c : Fin 1024 => score i x1 x2 zq r c)) := by
  unfold stepL
  refine (pay1_at _ _ _ r).trans ?_
  rw [pay10_at]
  exact congrArg (_ + ·) (Finset.sum_congr rfl fun c _ => pay11_at i x1 x2 zq mp r c)

theorem cast_splat {β : Type} (v : β) (h : S1024x1.ShapeCasts S1024x1) (i : S1024x1.Idx) :
    shapeCast S1024x1 (broadcast S1024x1 v) h i = v :=
  congrFun (shapeCast_self _ h) i

theorem start_at (x0 : Vec Ideal S1024x256 .f32) (r : Fin 1024) :
    (start (F := Ideal) x0).1 (ix2 r (0 : Fin 1)) = ⊥ ∧ (start (F := Ideal) x0).2.1 (ix2 r (0 : Fin 1)) = 0
      ∧ (start (F := Ideal) x0).2.2.1 (ix2 r (0 : Fin 1)) = 0 ∧ ∀ k : Fin 256, (start (F := Ideal) x0).2.2.2 (ix2 r k) = bunit x0 r k := by
  refine ⟨?_, ?_, ?_, fun k => ?_⟩
  · show k0_pay5 (F := Ideal) (ix2 r (0 : Fin 1)) = ⊥
    exact (cast_splat _ _ _).trans ofBits_neg_inf
  · show k0_pay6 (F := Ideal) (ix2 r (0 : Fin 1)) = 0
    exact (cast_splat _ _ _).trans Ideal.ofBits_zero_f32
  · show k0_pay7 (F := Ideal) (ix2 r (0 : Fin 1)) = 0
    exact (cast_splat _ _ _).trans Ideal.ofBits_zero_f32
  · exact (congrFun (shapeCast_self _ _) _).trans (normed_at x0 r k)

end Rows

section Diagonal

theorem ofNat_sub_eq_zero_iff (c r : ℕ) (hc : c < 1024) (hr : r < 1024) :
    BitVec.ofNat 32 c - BitVec.ofNat 32 r = 0#32 ↔ c = r := by
  constructor
  · intro h
    have h' := congrArg BitVec.toNat h
    simp only [BitVec.toNat_sub, BitVec.toNat_ofNat, BitVec.toNat_zero] at h'
    omega
  · rintro rfl
    exact BitVec.sub_self _

def diagMask (t : BitVec 32) : IVec S1024x1024 1 :=
  cmpi .eq (subi (iota .tc S1024x1024 32 [1] iota_S1024x1024_d1_w32) (iota .tc S1024x1024 32 [0] iota_S1024x1024_d0_w32))
    (broadcast S1024x1024 t)

theorem diagMask_at (r c : Fin 1024) : diagMask 0#32 (ix2 r c) = if c = r then 1#1 else 0#1 := by
  unfold diagMask
  show IntOp.cmpi .eq (IntOp.subi (iota .tc S1024x1024 32 [1] iota_S1024x1024_d1_w32 (ix2 r c))
      (iota .tc S1024x1024 32 [0] iota_S1024x1024_d0_w32 (ix2 r c))) 0#32 = _
  rw [iota_single_apply, iota_single_apply]
  show BitVec.ofBool (BitVec.ofNat 32 c.val - BitVec.ofNat 32 r.val == 0#32) = _
  by_cases hcr : c = r
  · rw [if_pos hcr, (ofNat_sub_eq_zero_iff c.val r.val c.isLt r.isLt).2 (congrArg Fin.val hcr)]
    rfl
  · rw [if_neg hcr]
    have hne : ¬ (BitVec.ofNat 32 c.val - BitVec.ofNat 32 r.val = 0#32) := fun h =>
      hcr (Fin.ext ((ofNat_sub_eq_zero_iff c.val r.val c.isLt r.isLt).1 h))
    rw [beq_eq_false_iff_ne.2 hne]
    rfl

theorem pay3_eq (a0 a2 : BitVec 32) (v25 : FVec Ideal S1024x1024 .f32) (dp : FVec Ideal S1024x1 .f32) :
    k0_pay3 (F := Ideal) a0 a2 v25 dp
      = shapeCast S1024x1 (addf dp (shapeCast S1024x1
          (multiReduction (F := Ideal) .add [1] S1024
            (select (diagMask (Scalar.subi (Scalar.muli a0 1024#32) (Scalar.muli a2 1024#32))) v25
              (broadcast S1024x1024 (Scalar.ofBits (F := Ideal) .f32 0x00000000#32)))
            0x00000000#32 reduces_S1024x1024_S1024 (.inl rfl) rfl) shapeCasts_S1024_S1024x1)) shapeCasts_S1024x1_S1024x1 := rfl

theorem stepD_at (i : grid0.Coords) (x1 x2 : Vec Ideal S1024x256 .f32) (zq : Vec Ideal S1024x256 .bf16)
    (dp : Vec Ideal S1024x1 .f32) (r : Fin 1024) (h : (i 0).val = (i 2).val) :
    stepD (F := Ideal) i x1 x2 zq dp (ix2 r (0 : Fin 1)) = dp (ix2 r (0 : Fin 1)) + score i x1 x2 zq r r := by
  unfold stepD
  rw [pay3_eq, shapeCast_self]
  have ht : Scalar.subi (Scalar.muli (BitVec.ofNat 32 (i 0).val) 1024#32) (Scalar.muli (BitVec.ofNat 32 (i 2).val) 1024#32) = 0#32 := by
    rw [h]; exact BitVec.sub_self _
  rw [ht]
  show dp (ix2 r (0 : Fin 1)) + shapeCast S1024x1 _ shapeCasts_S1024_S1024x1 (ix2 r (0 : Fin 1)) = _
  rw [shapeCast_a_a1_apply (a := 1024)]
  refine congrArg (dp (ix2 r (0 : Fin 1)) + ·) ((multiReduction_add_row (a := 1024) (b := 1024) _ _ _ _ r).trans ?_)
  have hterm : ∀ c : Fin 1024,
      select (diagMask 0#32) (k0_pay8 (F := Ideal) i x1 x2 zq) (broadcast S1024x1024 (Scalar.ofBits (F := Ideal) .f32 0x00000000#32)) (ix2 r c)
        = if c = r then score i x1 x2 zq r c else 0 := by
    intro c
    show Scalar.select (diagMask 0#32 (ix2 r c)) (k0_pay8 (F := Ideal) i x1 x2 zq (ix2 r c)) (Ideal.ofBits .f32 0x00000000#32) = _
    rw [diagMask_at, pay8_at, Ideal.ofBits_zero_f32]
    by_cases hcr : c = r
    · rw [if_pos hcr, if_pos hcr]; exact select_one _ _
    · rw [if_neg hcr, if_neg hcr]; exact select_zero _ _
  refine (Finset.sum_congr rfl fun c _ => hterm c).trans ?_
  rw [Finset.sum_ite_eq' Finset.univ r, if_pos (Finset.mem_univ r)]

end Diagonal

end Cert.KernelIdeal.StepAt

end
-- ==== Proof.KernelIdealInduct.lean ====
import proofs.«135269_j55619826483436_2_alg».proof.Proof.KernelIdealStepAt
import proofs.«135269_j55619826483436_2_alg».proof.Proof.Spec

noncomputable section

namespace Cert.KernelIdeal.Induct

open Idealize.ShloMosaic Idealize.ShloMosaic.ValueIdx Idealize.SL.Sem Cert.KernelIdeal Cert.KernelIdeal.Gen
open Cert.KernelIdeal.Step Cert.KernelIdeal.StepAt Cert.InfoNCE

theorem bunit_of_rows (x : Vec Ideal S1024x256 .f32) (X : Rows) (off : ℕ) (hoff : off + 1024 ≤ 4096)
    (h : ∀ (r : Fin 1024) (k : Fin 256), x (ix2 r k) = X (ix2 (⟨off + r.val, by omega⟩ : Fin 4096) k)) (r : Fin 1024) (k : Fin 256) :
    bunit x r k = unitv ε X ⟨off + r.val, by omega⟩ k := by
  unfold bunit bnrm unitv nrm
  simp only [h]

theorem online_zero (f : Fin 8192 → EReal) (h : 0 ≤ 8) : online f 0 h = (⊥, 0) := rfl

theorem online_succ (f : Fin 8192 → EReal) (n : ℕ) (h : n + 1 ≤ 8) :
    online f (n + 1) h
      = (max (online f n (Nat.le_of_succ_le h)).1 (Finset.univ.sup (blk f ⟨n, h⟩)),
         Ideal.exp ((online f n (Nat.le_of_succ_le h)).1 - max (online f n (Nat.le_of_succ_le h)).1 (Finset.univ.sup (blk f ⟨n, h⟩)))
             * (online f n (Nat.le_of_succ_le h)).2
           + ∑ c : Fin 1024, Ideal.exp (blk f ⟨n, h⟩ c - max (online f n (Nat.le_of_succ_le h)).1 (Finset.univ.sup (blk f ⟨n, h⟩)))) := rfl

theorem next_row (i : grid0.Coords) (D : Prop) [Decidable D] (x1 x2 : Vec Ideal S1024x256 .f32) (p : Carried Ideal)
    (r : Fin 1024) (f : Fin 8192 → EReal) (bb : Fin 8) (hs : ∀ c : Fin 1024, score i x1 x2 p.2.2.2 r c = blk f bb c) :
    (Step.next i D x1 x2 p).1 (ix2 r (0 : Fin 1)) = max (p.1 (ix2 r (0 : Fin 1))) (Finset.univ.sup (blk f bb))
    ∧ (Step.next i D x1 x2 p).2.1 (ix2 r (0 : Fin 1))
        = Ideal.exp (p.1 (ix2 r (0 : Fin 1)) - max (p.1 (ix2 r (0 : Fin 1))) (Finset.univ.sup (blk f bb))) * p.2.1 (ix2 r (0 : Fin 1))
          + ∑ c : Fin 1024, Ideal.exp (blk f bb c - max (p.1 (ix2 r (0 : Fin 1))) (Finset.univ.sup (blk f bb)))
    ∧ ∀ k : Fin 256, (Step.next i D x1 x2 p).2.2.2 (ix2 r k) = p.2.2.2 (ix2 r k) := by
  have hsup : (Finset.univ.sup fun c : Fin 1024 => score i x1 x2 p.2.2.2 r c) = Finset.univ.sup (blk f bb) :=
    congrArg (Finset.sup Finset.univ) (funext hs)
  refine ⟨?_, ?_, fun k => rfl⟩
  · show stepM i x1 x2 p.2.2.2 p.1 (ix2 r (0 : Fin 1)) = _
    rw [stepM_at, hsup]
  · show stepL i x1 x2 p.2.2.2 p.1 p.2.1 (ix2 r (0 : Fin 1)) = _
    rw [stepL_at, hsup]
    simp only [hs]

theorem next_diag_pos (i : grid0.Coords) (D : Prop) [Decidable D] (x1 x2 : Vec Ideal S1024x256 .f32) (p : Carried Ideal)
    (r : Fin 1024) (hD : D) (h02 : (i 0).val = (i 2).val) :
    (Step.next i D x1 x2 p).2.2.1 (ix2 r (0 : Fin 1)) = p.2.2.1 (ix2 r (0 : Fin 1)) + score i x1 x2 p.2.2.2 r r := by
  show (if D then stepD i x1 x2 p.2.2.2 p.2.2.1 else p.2.2.1) (ix2 r (0 : Fin 1)) = _
  rw [if_pos hD, stepD_at _ _ _ _ _ _ h02]

theorem next_diag_neg (i : grid0.Coords) (D : Prop) [Decidable D] (x1 x2 : Vec Ideal S1024x256 .f32) (p : Carried Ideal)
    (hD : ¬ D) : (Step.next i D x1 x2 p).2.2.1 = p.2.2.1 := by
  show (if D then stepD i x1 x2 p.2.2.2 p.2.2.1 else p.2.2.1) = _
  rw [if_neg hD]

section Sweep

variable (X1 X2 X3 : Rows)
  (car : (n : ℕ) → n < 32 → Carried Ideal)
  (b0 b1 b2 : Fin 32 → Vec Ideal S1024x256 .f32)
  (co : Fin 32 → grid0.Coords)
  (hco0 : ∀ t : Fin 32, (co t 0).val = t.val / 8) (hco1 : ∀ t : Fin 32, (co t 1).val = t.val % 8 / 4)
  (hco2 : ∀ t : Fin 32, (co t 2).val = t.val % 4)
  (hb0 : ∀ (t : Fin 32) (r : Fin 1024) (k : Fin 256), b0 t (ix2 r k) = X1 (ix2 (⟨1024 * (t.val / 8) + r.val, by omega⟩ : Fin 4096) k))
  (hb1 : ∀ (t : Fin 32) (r : Fin 1024) (k : Fin 256) (h4 : t.val % 8 < 4),
      b1 t (ix2 r k) = X2 (ix2 (⟨1024 * (t.val % 8) + r.val, by omega⟩ : Fin 4096) k))
  (hb2 : ∀ (t : Fin 32) (r : Fin 1024) (k : Fin 256) (h4 : 4 ≤ t.val % 8),
      b2 t (ix2 r k) = X3 (ix2 (⟨1024 * (t.val % 8 - 4) + r.val, by omega⟩ : Fin 4096) k))
  (hfirst : ∀ t : Fin 32, t.val % 8 = 0 →
      car t.val t.isLt = Step.next (co t) (t.val % 9 = 0) (b1 t) (b2 t) (Step.start (b0 t)))
  (hnext : ∀ t : Fin 32, ¬ t.val % 8 = 0 →
      car t.val t.isLt = Step.next (co t) (t.val % 9 = 0) (b1 t) (b2 t) (car (t.val - 1) (Nat.lt_of_le_of_lt (Nat.sub_le _ _) t.isLt)))

abbrev rowL (q : Fin 4) (r : Fin 1024) : Fin 8192 → EReal := logit ε α X1 X2 X3 ⟨1024 * q.val + r.val, by omega⟩

include hco1 hb1 hb2 in

theorem score_eq (q : Fin 4) (b : Fin 8) (zq : Vec Ideal S1024x256 .bf16) (r c : Fin 1024)
    (hz : ∀ k : Fin 256, zq (ix2 r k) = unitv ε X1 ⟨1024 * q.val + r.val, by omega⟩ k) :
    score (co ⟨8 * q.val + b.val, by omega⟩) (b1 ⟨8 * q.val + b.val, by omega⟩) (b2 ⟨8 * q.val + b.val, by omega⟩) zq r c
      = blk (rowL X1 X2 X3 q r) b c := by
  have hmod : (8 * q.val + b.val) % 8 = b.val := by omega
  unfold score blk rowL logit sim
  by_cases hb : b.val < 4
  · have h1 : (co ⟨8 * q.val + b.val, by omega⟩ 1).val = 0 := by rw [hco1]; simp only; omega
    rw [if_pos h1, dif_pos (show 1024 * b.val + c.val < 4096 by omega)]
    congr 1
    refine Finset.sum_congr rfl fun k _ => ?_
    rw [hz k]
    congr 1
    have := bunit_of_rows (b1 ⟨8 * q.val + b.val, by omega⟩) X2 (1024 * b.val) (by omega)
      (fun r' k' => by
        have := hb1 ⟨8 * q.val + b.val, by omega⟩ r' k' (by simp only; omega)
        simp only [hmod] at this
        exact this) c k
    exact this
  · have h1 : ¬ (co ⟨8 * q.val + b.val, by omega⟩ 1).val = 0 := by rw [hco1]; simp only; omega
    rw [if_neg h1, dif_neg (show ¬ 1024 * b.val + c.val < 4096 by omega)]
    congr 1
    refine Finset.sum_congr rfl fun k _ => ?_
    rw [hz k]
    congr 1
    have := bunit_of_rows (b2 ⟨8 * q.val + b.val, by omega⟩) X3 (1024 * (b.val - 4)) (by omega)
      (fun r' k' => by
        have := hb2 ⟨8 * q.val + b.val, by omega⟩ r' k' (by simp only; omega)
        simp only [hmod] at this
        exact this) c k
    rw [this]
    exact congrArg (fun j : Fin 4096 => unitv ε X3 j k)
      (Fin.ext (by show 1024 * (b.val - 4) + c.val = 1024 * b.val + c.val - 4096; omega))

include hco0 hco1 hco2 hb0 hb1 hb2 hfirst hnext in

/-- By induction on the key block `b` of query tile `q`: the carried pair is `online` at `b + 1`, and the diagonal logit is in once its block has passed. -/
theorem sweep (q : Fin 4) : ∀ (b : ℕ) (hb : b < 8) (r : Fin 1024),
    (car (8 * q.val + b) (by omega)).1 (ix2 r (0 : Fin 1)) = (online (rowL X1 X2 X3 q r) (b + 1) (by omega)).1
    ∧ (car (8 * q.val + b) (by omega)).2.1 (ix2 r (0 : Fin 1)) = (online (rowL X1 X2 X3 q r) (b + 1) (by omega)).2
    ∧ (car (8 * q.val + b) (by omega)).2.2.1 (ix2 r (0 : Fin 1))
        = (if q.val ≤ b then rowL X1 X2 X3 q r ⟨1024 * q.val + r.val, by omega⟩ else 0)
    ∧ ∀ k : Fin 256, (car (8 * q.val + b) (by omega)).2.2.2 (ix2 r k) = unitv ε X1 ⟨1024 * q.val + r.val, by omega⟩ k := by
  intro b
  induction b with
  | zero =>
    intro hb r
    have e : car (8 * q.val + 0) (by omega)
        = Step.next (co ⟨8 * q.val + 0, by omega⟩) ((8 * q.val + 0) % 9 = 0) (b1 ⟨8 * q.val + 0, by omega⟩)
            (b2 ⟨8 * q.val + 0, by omega⟩) (Step.start (b0 ⟨8 * q.val + 0, by omega⟩)) :=
      hfirst ⟨8 * q.val + 0, by omega⟩ (by simp only; omega)
    obtain ⟨s1, s2, s3, s4⟩ := start_at (b0 ⟨8 * q.val + 0, by omega⟩) r
    have hz : ∀ k : Fin 256, (Step.start (b0 ⟨8 * q.val + 0, by omega⟩)).2.2.2 (ix2 r k)
        = unitv ε X1 ⟨1024 * q.val + r.val, by omega⟩ k := fun k => by
      rw [s4 k]
      have := bunit_of_rows (b0 ⟨8 * q.val + 0, by omega⟩) X1 (1024 * q.val) (by omega)
        (fun r' k' => by
          have := hb0 ⟨8 * q.val + 0, by omega⟩ r' k'
          have hq : (8 * q.val + 0) / 8 = q.val := by omega
          simp only [hq] at this
          exact this) r k
      exact this
    have hs := fun c : Fin 1024 => score_eq X1 X2 X3 b1 b2 co hco1 hb1 hb2 q ⟨0, by omega⟩
      (Step.start (b0 ⟨8 * q.val + 0, by omega⟩)).2.2.2 r c hz
    obtain ⟨n1, n2, n3⟩ := next_row (co ⟨8 * q.val + 0, by omega⟩) ((8 * q.val + 0) % 9 = 0)
      (b1 ⟨8 * q.val + 0, by omega⟩) (b2 ⟨8 * q.val + 0, by omega⟩) (Step.start (b0 ⟨8 * q.val + 0, by omega⟩)) r
      (rowL X1 X2 X3 q r) ⟨0, by omega⟩ hs
    rw [e]
    refine ⟨?_, ?_, ?_, fun k => (n3 k).trans (hz k)⟩
    · rw [n1, s1, online_succ, online_zero]
    · rw [n2, s1, s2, online_succ, online_zero]
    · by_cases hq : q.val = 0
      · have hD : (8 * q.val + 0) % 9 = 0 := by omega
        rw [next_diag_pos _ _ _ _ _ r hD (by rw [hco0, hco2]; show (8 * q.val + 0) / 8 = (8 * q.val + 0) % 4; omega), s3, zero_add,
          hs r, if_pos (by omega)]
        exact congrArg (rowL X1 X2 X3 q r) (Fin.ext (by show 1024 * 0 + r.val = 1024 * q.val + r.val; omega))
      · have hD : ¬ (8 * q.val + 0) % 9 = 0 := by omega
        rw [next_diag_neg _ _ _ _ _ hD, s3, if_neg (by omega)]
  | succ b ih =>
    intro hb r
    obtain ⟨i1, i2, i3, i4⟩ := ih (by omega) r
    have e : car (8 * q.val + (b + 1)) (by omega)
        = Step.next (co ⟨8 * q.val + (b + 1), by omega⟩) ((8 * q.val + (b + 1)) % 9 = 0) (b1 ⟨8 * q.val + (b + 1), by omega⟩)
            (b2 ⟨8 * q.val + (b + 1), by omega⟩) (car (8 * q.val + b) (by omega)) :=
      hnext ⟨8 * q.val + (b + 1), by omega⟩ (by simp only; omega)
    have hs := fun c : Fin 1024 => score_eq X1 X2 X3 b1 b2 co hco1 hb1 hb2 q ⟨b + 1, by omega⟩
      (car (8 * q.val + b) (by omega)).2.2.2 r c i4
    obtain ⟨n1, n2, n3⟩ := next_row (co ⟨8 * q.val + (b + 1), by omega⟩) ((8 * q.val + (b + 1)) % 9 = 0)
      (b1 ⟨8 * q.val + (b + 1), by omega⟩) (b2 ⟨8 * q.val + (b + 1), by omega⟩) (car (8 * q.val + b) (by omega)) r
      (rowL X1 X2 X3 q r) ⟨b + 1, by omega⟩ hs
    rw [e]
    refine ⟨?_, ?_, ?_, fun k => (n3 k).trans (i4 k)⟩
    · rw [n1, i1, online_succ (rowL X1 X2 X3 q r) (b + 1)]
    · rw [n2, i1, i2, online_succ (rowL X1 X2 X3 q r) (b + 1)]
    · by_cases hq : q.val = b + 1
      · have hD : (8 * q.val + (b + 1)) % 9 = 0 := by omega
        have e9 : 8 * q.val + (b + 1) = 9 * q.val := by omega
        have h02 : (co ⟨8 * q.val + (b + 1), by omega⟩ 0).val = (co ⟨8 * q.val + (b + 1), by omega⟩ 2).val := by
          rw [hco0, hco2]
          show (8 * q.val + (b + 1)) / 8 = (8 * q.val + (b + 1)) % 4
          rw [e9]
          exact (by decide : ∀ q : Fin 4, (9 * q.val) / 8 = (9 * q.val) % 4) q
        rw [next_diag_pos _ _ _ _ _ r hD h02, i3, if_neg (by omega), zero_add, hs r, if_pos (by omega)]
        exact congrArg (rowL X1 X2 X3 q r) (Fin.ext (by show 1024 * (b + 1) + r.val = 1024 * q.val + r.val; omega))
      · have hD : ¬ (8 * q.val + (b + 1)) % 9 = 0 := by omega
        rw [next_diag_neg _ _ _ _ _ hD, i3]
        by_cases hle : q.val ≤ b
        · rw [if_pos hle, if_pos (by omega)]
        · rw [if_neg hle, if_neg (by omega)]

include hco0 hco1 hco2 hb0 hb1 hb2 hfirst hnext in

theorem sweep_last (q : Fin 4) (r : Fin 1024) :
    (car (8 * q.val + 7) (by omega)).1 (ix2 r (0 : Fin 1)) = (online (rowL X1 X2 X3 q r) 8 le_rfl).1
    ∧ (car (8 * q.val + 7) (by omega)).2.1 (ix2 r (0 : Fin 1)) = (online (rowL X1 X2 X3 q r) 8 le_rfl).2
    ∧ (car (8 * q.val + 7) (by omega)).2.2.1 (ix2 r (0 : Fin 1)) = rowL X1 X2 X3 q r ⟨1024 * q.val + r.val, by omega⟩ := by
  obtain ⟨h1, h2, h3, -⟩ := sweep X1 X2 X3 car b0 b1 b2 co hco0 hco1 hco2 hb0 hb1 hb2 hfirst hnext q 7 (by omega) r
  exact ⟨h1, h2, h3.trans (if_pos (by omega))⟩

end Sweep

end Cert.KernelIdeal.Induct

end
-- ==== Proof.KernelIdealLast.lean ====
import proofs.«135269_j55619826483436_2_alg».proof.Proof.KernelIdealCarried
import proofs.«135269_j55619826483436_2_alg».proof.Proof.KernelIdealBlocks
import proofs.«135269_j55619826483436_2_alg».proof.Proof.KernelIdealInduct

set_option maxRecDepth 16384

noncomputable section

namespace Cert.KernelIdeal.Last

open Idealize.ShloMosaic Idealize.ShloMosaic.ValueIdx Idealize.ShloMosaic.TcCoe Idealize.SL.Sem
open Cert.KernelIdeal Cert.KernelIdeal.Gen Cert.KernelIdeal.GenP Cert.KernelIdeal.Step Cert.KernelIdeal.StepAt
open Cert.KernelIdeal.Blocks Cert.KernelIdeal.Induct Cert.InfoNCE

variable (m : (ℓ : Loc nD τ sig) → Buf (Elt Ideal) ℓ) (c : Dev nD)

theorem N32 : cfg0.N = 32 := N_0

/-- At the last point of query tile `q` the kernel carries the full running pair and the diagonal logit of each of its rows. -/
theorem carried_last (q : Fin 4) (r : Fin 1024) :
    (carriedAt (F := Ideal) m c (8 * q.val + 7) (by have := N32; omega)).1 (ix2 r (0 : Fin 1))
        = (online (logit ε α (X1 m c) (X2 m c) (X3 m c) ⟨1024 * q.val + r.val, by omega⟩) 8 le_rfl).1
    ∧ (carriedAt (F := Ideal) m c (8 * q.val + 7) (by have := N32; omega)).2.1 (ix2 r (0 : Fin 1))
        = (online (logit ε α (X1 m c) (X2 m c) (X3 m c) ⟨1024 * q.val + r.val, by omega⟩) 8 le_rfl).2
    ∧ (carriedAt (F := Ideal) m c (8 * q.val + 7) (by have := N32; omega)).2.2.1 (ix2 r (0 : Fin 1))
        = logit ε α (X1 m c) (X2 m c) (X3 m c) ⟨1024 * q.val + r.val, by omega⟩ ⟨1024 * q.val + r.val, by omega⟩ :=
  sweep_last (X1 m c) (X2 m c) (X3 m c)
    (fun n hn => carriedAt (F := Ideal) m c n (by have := N32; omega))
    (fun t => iblk m c 0 (Fin.cast N32.symm t)) (fun t => iblk m c 1 (Fin.cast N32.symm t))
    (fun t => iblk m c 2 (Fin.cast N32.symm t)) (fun t => grid0.coords (Fin.cast N32.symm t))
    (fun t => (coords_val (Fin.cast N32.symm t)).1) (fun t => (coords_val (Fin.cast N32.symm t)).2.1)
    (fun t => (coords_val (Fin.cast N32.symm t)).2.2)
    (fun t r k => blk0_at m c (Fin.cast N32.symm t) r k)
    (fun t r k h4 => blk1_at m c (Fin.cast N32.symm t) r k h4)
    (fun t r k h4 => blk2_at m c (Fin.cast N32.symm t) r k h4)
    (fun t h0 => carriedAt_first m c (Fin.cast N32.symm t) h0)
    (fun t h0 => carriedAt_next m c (Fin.cast N32.symm t) h0)
    q r

end Cert.KernelIdeal.Last

end
-- ==== Proof.KernelIdealResult.lean ====
/-
  The kernel's result, from what each row block carries at its last point. At the last of a row block's eight column blocks the
  three carried columns of 1024 values (running maximum, running sum, diagonal logit) are that block's rows of three
  [4096, 1] arrays. The four row blocks tile the arrays, so after the sweep row i holds the online pair of row i's
  logits and its diagonal logit; the operations that follow turn them into minus the mean of d − (m + log l).
-/
import proofs.«135269_j55619826483436_2_alg».proof.Proof.KernelIdealLast
import Idealize.ShloMosaic.Lib.Pipeline.Value
import Idealize.ShloMosaic.Lib.Pipeline.FrameSuffix
import Idealize.ShloMosaic.Lib.IdealHost
import Idealize.ShloMosaic.PureOps.Ideal.Laws
import Idealize.ShloMosaic.Lib.ValueIdx

set_option maxRecDepth 16384

noncomputable section

namespace Cert.KernelIdeal.ResultK

open Cert.KernelIdeal Cert.KernelIdeal.Gen Cert.KernelIdeal.GenP Cert.KernelIdeal.Step Cert.KernelIdeal.StepAt Cert.KernelIdeal.Blocks Cert.KernelIdeal.Last Cert.InfoNCE
open Idealize.ShloMosaic Idealize.ShloMosaic.TcCoe Idealize.ShloMosaic.ValueIdx Idealize.SL.Sem

variable (m : (ℓ : Loc nD τ sig) → Buf (Elt Ideal) ℓ) (ρ : Dev nD → PrngReg)

abbrev lg (c : Dev nD) (i : Fin 4096) : Fin 8192 → EReal := logit ε α (X1 m c) (X2 m c) (X3 m c) i

abbrev dg (i : Fin 4096) : Fin 8192 := ⟨i.val, by have := i.isLt; omega⟩

/-- Row by row: the running maximum and the running sum after all eight column blocks, and the diagonal logit. -/
def G3 (c : Dev nD) : S4096x1.Idx → EReal := fun idx => (online (lg m c (idx 0)) 8 le_rfl).1
def G4 (c : Dev nD) : S4096x1.Idx → EReal := fun idx => (online (lg m c (idx 0)) 8 le_rfl).2
def G5 (c : Dev nD) : S4096x1.Idx → EReal := fun idx => lg m c (idx 0) (dg (idx 0))

theorem pt_lt (q : Fin 4) : 8 * q.val + 7 < cfg0.N := by have := q.isLt; have := N32; omega
theorem row_lt (q : Fin 4) (r : Fin 1024) : 1024 * q.val + r.val < 4096 := by have := q.isLt; have := r.isLt; omega

theorem carriedAt_congr (c : Dev nD) {n n' : ℕ} (e : n = n') (h : n < cfg0.N) (h' : n' < cfg0.N) :
    carriedAt m c n h = carriedAt m c n' h' := by subst e; rfl

/-- The three output windows' block of point t: row block t / 8, the only column block. -/
theorem idx_facts : ∀ t : Fin cfg0.N, (win0_3.index t (0 : Fin 2) = t.val / 8 ∧ win0_3.index t (1 : Fin 2) = 0)
    ∧ (win0_4.index t (0 : Fin 2) = t.val / 8 ∧ win0_4.index t (1 : Fin 2) = 0)
    ∧ (win0_5.index t (0 : Fin 2) = t.val / 8 ∧ win0_5.index t (1 : Fin 2) = 0) :=
  (by decide +kernel : ∀ t : Fin grid0.N, _)

/-- At the last point of row block b, row y of the carried columns stands for row 1024 · b + y of the arrays. -/
theorem carried_row (c : Dev nD) (t : Fin cfg0.N) (h7 : t.val % 8 = 7) (y : S1024x1.Idx) (i : S4096x1.Idx)
    (b : ℕ) (hb : b = t.val / 8) (h0 : (i 0).val = b * 1024 + 1 * (y 0).val) :
    (carriedAt m c t.val t.isLt).1 y = G3 m c i ∧ (carriedAt m c t.val t.isLt).2.1 y = G4 m c i
      ∧ (carriedAt m c t.val t.isLt).2.2.1 y = G5 m c i := by
  subst hb
  obtain ⟨r, z, rfl⟩ : ∃ (r : Fin 1024) (z : Fin 1), y = ix2 r z := ⟨y 0, y 1, eq_ix2 y⟩
  obtain rfl : z = 0 := Subsingleton.elim _ _
  have hN : cfg0.N = 32 := N_0
  have htl : t.val < 32 := hN ▸ t.isLt
  have hq : t.val / 8 < 4 := by omega
  have e : 8 * (⟨t.val / 8, hq⟩ : Fin 4).val + 7 = t.val := by show 8 * (t.val / 8) + 7 = t.val; omega
  have hi : i 0 = ⟨1024 * (⟨t.val / 8, hq⟩ : Fin 4).val + r.val, row_lt ⟨t.val / 8, hq⟩ r⟩ := Fin.ext (by
    show (i 0).val = 1024 * (t.val / 8) + r.val
    rw [h0]; show t.val / 8 * 1024 + 1 * r.val = _; omega)
  obtain ⟨k1, k2, k3⟩ := carried_last m c ⟨t.val / 8, hq⟩ r
  rw [carriedAt_congr m c e (pt_lt _) t.isLt] at k1 k2 k3
  unfold G3 G4 G5
  rw [hi]
  exact ⟨k1, k2, k3⟩

/-- The last point of the row block that holds row i. -/
def lastPt (i : S4096x1.Idx) : Fin cfg0.N :=
  ⟨8 * ((i 0).val / 1024) + 7, by have := idx2_lt0 i; rw [show cfg0.N = 32 from N_0]; omega⟩

theorem lastPt_mod (i : S4096x1.Idx) : (lastPt i).val % 8 = 7 := by show (8 * ((i 0).val / 1024) + 7) % 8 = 7; omega
theorem lastPt_div (i : S4096x1.Idx) : (lastPt i).val / 8 = (i 0).val / 1024 := by show (8 * ((i 0).val / 1024) + 7) / 8 = _; omega

/-- Row i lies in that point's block: 1024 · (i / 1024) ≤ i < 1024 · (i / 1024) + 1024. -/
theorem covered (i : S4096x1.Idx) (ix : Fin 2 → ℕ) (h : ix 0 = (lastPt i).val / 8 ∧ ix 1 = 0) (a : Fin 2) :
    ix a * S1024x1.size a ≤ (i a).val ∧ (i a).val < ix a * S1024x1.size a + S1024x1.size a := by
  have hi0 : (i 0).val < 4096 := idx2_lt0 i
  have hi1 : (i 1).val < 1 := idx2_lt1 i
  obtain ⟨e0, e1⟩ := h
  rw [lastPt_div] at e0
  match a with
  | ⟨0, _⟩ => show ix 0 * 1024 ≤ (i 0).val ∧ (i 0).val < ix 0 * 1024 + 1024; omega
  | ⟨1, _⟩ => show ix 1 * 1 ≤ (i 1).val ∧ (i 1).val < ix 1 * 1 + 1; omega

/-- The last points' blocks tile each array, so after the run it holds its column, row by row. -/
theorem final3 (c : Dev nD) : (dats m 0 c).arrAt 3 cfg0.N = G3 m c :=
  (dats m 0 c).arrAt_eq_of_cover 3 (G3 m c)
    (fun t hf => by
      have h7 : t.val % 8 = 7 := (flush0_3 t).mp hf
      show (cfg0.win 3).cut (grid0.coords t) ((dats m 0 c).after 3 t) = _
      rw [after0_3, (outs_last m c t h7).1]
      exact funext fun y => (carried_row m c t h7 y _ _ (idx_facts t).1.1 rfl).1)
    (fun i => ⟨lastPt i, (flush0_3 _).mpr (lastPt_mod i), by
      show i ∈ ((View.whole main_v0_0).slice (win0_3.rect (lastPt i))).set
      rw [View.set_slice_whole, Rect.mem_set_unit]
      exact covered i (win0_3.index (lastPt i)) (idx_facts (lastPt i)).1⟩)
theorem final4 (c : Dev nD) : (dats m 0 c).arrAt 4 cfg0.N = G4 m c :=
  (dats m 0 c).arrAt_eq_of_cover 4 (G4 m c)
    (fun t hf => by
      have h7 : t.val % 8 = 7 := (flush0_4 t).mp hf
      show (cfg0.win 4).cut (grid0.coords t) ((dats m 0 c).after 4 t) = _
      rw [after0_4, (outs_last m c t h7).2.1]
      exact funext fun y => (carried_row m c t h7 y _ _ (idx_facts t).2.1.1 rfl).2.1)
    (fun i => ⟨lastPt i, (flush0_4 _).mpr (lastPt_mod i), by
      show i ∈ ((View.whole main_v0_1).slice (win0_4.rect (lastPt i))).set
      rw [View.set_slice_whole, Rect.mem_set_unit]
      exact covered i (win0_4.index (lastPt i)) (idx_facts (lastPt i)).2.1⟩)
theorem final5 (c : Dev nD) : (dats m 0 c).arrAt 5 cfg0.N = G5 m c :=
  (dats m 0 c).arrAt_eq_of_cover 5 (G5 m c)
    (fun t hf => by
      have h7 : t.val % 8 = 7 := (flush0_5 t).mp hf
      show (cfg0.win 5).cut (grid0.coords t) ((dats m 0 c).after 5 t) = _
      rw [after0_5, (outs_last m c t h7).2.2]
      exact funext fun y => (carried_row m c t h7 y _ _ (idx_facts t).2.2.1 rfl).2.2)
    (fun i => ⟨lastPt i, (flush0_5 _).mpr (lastPt_mod i), by
      show i ∈ ((View.whole main_v0_2).slice (win0_5.rect (lastPt i))).set
      rw [View.set_slice_whole, Rect.mem_set_unit]
      exact covered i (win0_5.index (lastPt i)) (idx_facts (lastPt i)).2.2⟩)

abbrev n4096 : EReal := Ideal.ofBits .f32 0x45800000#32

/-- The host operations after the sweep: d − (m + log l) row by row, summed from zero, over 4096, negated. -/
theorem tail_eq (c : Dev nD) :
    Pipeline.afterTail₀ cfgs (dats m) 0 (V0 m) [hostOps1] c main_v6
      = fun _ => lossOnline ε α n4096 (X1 m c) (X2 m c) (X3 m c) := by
  unfold Pipeline.afterTail₀
  show StableHlo.after hostOps1 _ (Proc.devRef .tc main_v6) = _
  after_results
  have e0 : Pipeline.withArrays (cfgs 0).spec c (V0 m c) (fun w => (dats m 0 c).arrAt w (cfgs 0).N) (Proc.devRef .tc main_v0_0) = G3 m c :=
    (Pipeline.withArrays_arr spec0 launch0.win.arr_inj c _ _ 3).trans (final3 m c)
  have e1 : Pipeline.withArrays (cfgs 0).spec c (V0 m c) (fun w => (dats m 0 c).arrAt w (cfgs 0).N) (Proc.devRef .tc main_v0_1) = G4 m c :=
    (Pipeline.withArrays_arr spec0 launch0.win.arr_inj c _ _ 4).trans (final4 m c)
  have e2 : Pipeline.withArrays (cfgs 0).spec c (V0 m c) (fun w => (dats m 0 c).arrAt w (cfgs 0).N) (Proc.devRef .tc main_v0_2) = G5 m c :=
    (Pipeline.withArrays_arr spec0 launch0.win.arr_inj c _ _ 5).trans (final5 m c)
  rw [e0, e1, e2]
  funext j
  show -(Ideal.div (Ideal.hostReduceAdd reducesTo_S4096x1_S_d0_1 (subf (F := Ideal) (G5 m c : FVec Ideal S4096x1 .f32) (addf (F := Ideal) (G3 m c : FVec Ideal S4096x1 .f32) (Host.log (F := Ideal) (G4 m c : FVec Ideal S4096x1 .f32)))) (Ideal.ofBits .f32 0x00000000#32) j) n4096) = _
  rw [Ideal.hostReduceAdd_total reducesTo_S4096x1_S_d0_1 (fun b => b.elim0), Ideal.ofBits_zero_f32, zero_add, sum_idx2]
  unfold lossOnline
  refine congrArg (fun s => -(Ideal.div s n4096)) (Finset.sum_congr rfl fun a _ => ?_)
  rw [Fin.sum_univ_one]
  rfl

theorem kernel_run :
    θ_run (defs (F := Ideal)) (onTc (τ := τ) (main (F := Ideal))) ⟨m, fun _ => 0, ρ⟩ (fun r => ∀ c : Dev nD,
        r.2.mem ((c.tc : Thread nD τ).loc main_v6) = (fun _ => lossOnline ε α (Ideal.ofBits .f32 0x45800000#32) (X1 m c) (X2 m c) (X3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.ResultK

end
-- ==== Proof.RefVal.lean ====
/-
  The reference's stages as the quantities of the specification, index by index and over any three arrays: normalised
  rows, logits, row maximum, shifted logits and the sum of their exponentials, log-softmax, the diagonal entry each row's
  gather picks, and minus the mean of those entries.
-/
import proofs.«135269_j55619826483436_2_alg».proof.Proof.RefRead
import proofs.«135269_j55619826483436_2_alg».proof.Proof.Spec
import Idealize.ShloMosaic.Lib.StableHlo.Predicate

noncomputable section

namespace Cert.RefVal

open Cert.ReferenceIdeal Cert.ReferenceIdeal.Gen Cert.ReferenceIdeal.ReadP Idealize.ShloMosaic Idealize.ShloMosaic.ValueIdx Cert.InfoNCE

/-- Below this the norms are clamped. -/
abbrev ε : EReal := Ideal.ofBits .f32 0x2B8CBCCC#32

abbrev Arr := (⟨S4096x256, .f32⟩ : BufTy).Contents (Elt Ideal)

/-- The first stages give the normalised array, entry by entry. -/
theorem v7_at (x : Arr) (i : Fin 4096) (k : Fin 256) :
    val_main_v7 (F := Ideal) x (ix2 i k) = unitv ε x i k := by
  rw [val_main_v7_apply, val_main_v6_apply, val_main_v5_apply, val_main_v3_apply, val_main_v2, bcastRow_apply, val_main_v1_apply, val_main_v4, bcast0_apply, val_main_cst_0_apply, val_main_cst_apply]
  simp only [val_main_v0_apply]
  have hidx : ∀ k1 : Fin 256, idx_main_v1 (idx_row (idx_main_v6 (ix2 i k))) k1 = ix2 i k1 := fun k1 => by
    funext a; match a with | ⟨0, _⟩ => rfl | ⟨1, _⟩ => rfl
  simp only [hidx, Ideal.hostDivf_def, Ideal.hostUnary_sqrt_def, Ideal.ofBits_def, Ideal.ofBits_zero_f32, zero_add,
    Ideal.maximumf_def, Ideal.mulf_def]
  rfl

abbrev α : EReal := ((268435456 / 13421773 : ℝ) : EReal)

/-- The scale's float word is 13421773 · 2⁻²⁸. -/
theorem ofBits_scale : Ideal.ofBits .f32 0x3D4CCCCD#32 = ((13421773 / 268435456 : ℝ) : EReal) := by
  simp [Ideal.ofBits, Ideal.ieee, -EReal.coe_mul]; norm_num

theorem div_scale (x : EReal) : Ideal.div x (Ideal.ofBits .f32 0x3D4CCCCD#32) = x * α := by
  rw [ofBits_scale, Ideal.div_coe (by norm_num)]
  congr 2; norm_num

/-- One half of the logits: the inner products of normalised rows, divided by the scale constant. -/
theorem v27_at (x0 x1 : Arr) (i j : Fin 4096) :
    val_main_v27 (F := Ideal) x0 x1 (ix2 i j) = sim ε α x0 x1 i j := by
  rw [val_main_v27_apply, val_main_v26, bcast0_apply, val_main_cst_5_apply, val_main_v25_apply]
  simp only [val_main_v24_apply]
  have hl : ∀ k : Fin 256, lidx_main_v25 (ix2 i j) k = ix2 i k := fun k => by
    funext a; match a with | ⟨0, _⟩ => rfl | ⟨1, _⟩ => rfl
  have hr : ∀ k : Fin 256, idx_main_v24 (ridx_main_v25 (ix2 i j) k) = ix2 j k := fun k => by
    funext a; match a with | ⟨0, _⟩ => rfl | ⟨1, _⟩ => rfl
  simp only [hl, hr, v7_at, Ideal.hostDivf_def, Ideal.ofBits_def, div_scale]
  rfl

/-- Columns below 4096 come from the first half, the others from the second. -/
theorem v32_at (x0 x1 x2 : Arr) (i : Fin 4096) (j : Fin 8192) :
    val_main_v32 (F := Ideal) x0 x1 x2 (ix2 i j) = logit ε α x0 x1 x2 i j := by
  unfold val_main_v32 logit
  by_cases h : j.val < 4096
  · rw [dif_pos h, ← v27_at]
    exact concatenate_pair_apply_left 1 _ _ concatenates_S4096x4096_S4096x4096_S4096x8192_d1 (ix2 i j) rfl
      (ix2 i ⟨j.val, h⟩) (fun b => match b with | ⟨0, _⟩ => rfl | ⟨1, _⟩ => rfl)
  · rw [dif_neg h, ← v27_at]
    exact concatenate_pair_apply_right 1 _ _ concatenates_S4096x4096_S4096x4096_S4096x8192_d1 (ix2 i j) rfl rfl
      (ix2 i ⟨j.val - 4096, by omega⟩) (fun b hb => match b, hb with | ⟨0, _⟩, _ => rfl | ⟨1, _⟩, hb => absurd rfl hb)
      (by show j.val - 4096 + 4096 = j.val; omega)

theorem ofBits_neg_inf : Ideal.ofBits .f32 0xFF800000#32 = ⊥ := by
  simp [Ideal.ofBits, Ideal.ieee]

theorem lift_row (h : S4096x8192.Reduces [1] S4096) (i : Fin 4096) (k : Fin (S4096x8192.size 1)) :
    h.lift (ix1 i) k = ix2 i (⟨k.val, k.isLt⟩ : Fin 8192) := by
  funext c; apply Fin.ext
  fin_cases c <;> rfl

/-- A maximum-reduce over the columns is, at row i, the fold of max over that row. -/
theorem rowmax_abs (y : FVec Ideal S4096x8192 .f32) (init : FVec Ideal S_ .f32) (hR : S4096x8192.Reduces [1] S4096) (i : Fin 4096) :
    Host.reduce FloatOps.maximumf y init reducesTo_S4096x8192_S4096_d1 h_S_ (ix1 i)
      = (Finset.univ : Finset (Fin 8192)).fold max (init (Shape.Idx.first h_S_)) (fun k => y (ix2 i k)) := by
  rw [Host.reduce_eq_fold_single FloatOps.maximumf y _ reducesTo_S4096x8192_S4096_d1 hR h_S_]
  have hf : (y ∘ hR.lift (ix1 i)) = fun k : Fin 8192 => y (ix2 i k) := funext fun k => congrArg y (lift_row hR i k)
  exact congrArg (fun f => Finset.fold max (init (Shape.Idx.first h_S_)) f (Finset.univ : Finset (Fin 8192))) hf

theorem call0_v0_at (x0 x1 x2 : Arr) (i : Fin 4096) :
    val_main_call0_v0 (F := Ideal) x0 x1 x2 (ix1 i) = rowMax ε α x0 x1 x2 i := by
  unfold val_main_call0_v0 rowMax
  refine (rowmax_abs _ _ (by decide) i).trans ?_
  simp only [v32_at, val_main_call0_cst_apply, Ideal.ofBits_def, ofBits_neg_inf]
  rfl

theorem call0_v2_at (x0 x1 x2 : Arr) (i : Fin 4096) :
    val_main_call0_v2 (F := Ideal) x0 x1 x2 (ix1 i) = rowMax ε α x0 x1 x2 i := by
  rw [val_main_call0_v2_apply, val_main_call0_v1, bcast0_apply, val_main_call0_cst_0_apply, call0_v0_at,
    Ideal.maximumf_def, Ideal.ofBits_def, ofBits_neg_inf]
  exact max_bot_left _

/-- The logits less their row maximum. -/
theorem call0_v5_at (x0 x1 x2 : Arr) (i : Fin 4096) (j : Fin 8192) :
    val_main_call0_v5 (F := Ideal) x0 x1 x2 (ix2 i j) = logit ε α x0 x1 x2 i j - rowMax ε α x0 x1 x2 i := by
  rw [val_main_call0_v5_apply, val_main_call0_v4, bcastCol_apply, val_main_call0_v3, bcastRow_apply, v32_at]
  have hidx : idx_row (idx_col (ix2 i j)) = ix1 i := by
    funext a; match a with | ⟨0, _⟩ => rfl
  rw [hidx, call0_v2_at]
  rfl

theorem call0_v7_at (x0 x1 x2 : Arr) (i : Fin 4096) :
    val_main_call0_v7 (F := Ideal) x0 x1 x2 (ix1 i) = rowSum ε α x0 x1 x2 i := by
  rw [val_main_call0_v7_apply, val_main_call0_cst_1_apply, Ideal.ofBits_def, Ideal.ofBits_zero_f32, zero_add]
  unfold rowSum
  refine Finset.sum_congr rfl fun k _ => ?_
  have hidx : idx_main_call0_v7 (ix1 i) k = ix2 i k := by
    funext a; match a with | ⟨0, _⟩ => rfl | ⟨1, _⟩ => rfl
  rw [hidx, val_main_call0_v6_apply, call0_v5_at, Ideal.hostUnary_exp_def]

/-- The log-softmax. -/
theorem v34_at (x0 x1 x2 : Arr) (i : Fin 4096) (j : Fin 8192) :
    val_main_v34 (F := Ideal) x0 x1 x2 (ix2 i j)
      = (logit ε α x0 x1 x2 i j - rowMax ε α x0 x1 x2 i) - Ideal.log (rowSum ε α x0 x1 x2 i) := by
  rw [val_main_v34_apply, val_main_call0_v10, bcastCol_apply, val_main_call0_v9_apply, val_main_call0_v8, bcastRow_apply, call0_v5_at]
  have hidx : idx_row (idx_col (ix2 i j)) = ix1 i := by
    funext a; match a with | ⟨0, _⟩ => rfl
  rw [hidx, call0_v7_at, Ideal.hostUnary_log_def]
  rfl

local notation "G" => gather_S4096x8192_S4096x1x1_S4096x1_n_1_0_0_1_2_11

/-- With one start index per row and a one-column slice, the gather reads row i at its start index clamped into the columns. -/
theorem gather_at {β : Type} (x : S4096x8192.Idx → β) (idx : IVec S4096x1x1 32) (i : Fin 4096) :
    Host.gather gather_S4096x8192_S4096x1x1_S4096x1_n_1_0_0_1_2_11 x idx (ix2 i (0 : Fin 1))
      = x (ix2 i (⟨min (idx (ix3 i (0 : Fin 1) (0 : Fin 1))).toInt.toNat 8191, by omega⟩ : Fin 8192)) := by
  unfold Host.gather
  congr 1
  funext a
  refine Fin.ext ?_
  show GatherDims.start G (ix2 i (0 : Fin 1)) idx a + GatherDims.batchCoord G (ix2 i (0 : Fin 1)) a
    + GatherDims.offCoord G (ix2 i (0 : Fin 1)) a = _
  fin_cases a
  · beta_reduce
    rw [GatherDims.start_batching G _ _ _ (by decide),
      GatherDims.offCoord_eq_zero G _ _ (fun h => ((GatherDims.mem_sKept G _).mp h).2 (by decide))]
    unfold GatherDims.batchCoord
    rw [dif_pos (by decide), Nat.zero_add, Nat.add_zero]
    rfl
  · beta_reduce
    rw [GatherDims.batchCoord_eq_zero G _ _ (by decide),
      GatherDims.offCoord_eq_zero G _ _ (fun h => ((GatherDims.mem_sKept G _).mp h).1 (by decide))]
    unfold GatherDims.start
    rw [dif_pos (by decide)]
    simp only [Nat.add_zero]
    have hsi : ∀ c : Fin (GatherDims.startIndexMap G).length,
        GatherDims.siIdx G (ix2 i (0 : Fin 1)) c = ix3 i (0 : Fin 1) (0 : Fin 1) := fun c => by
      have hc : c.val < 1 := c.isLt
      funext b; refine Fin.ext ?_
      match b with
      | ⟨0, _⟩ => rfl
      | ⟨1, _⟩ => rfl
      | ⟨2, _⟩ => show c.val = 0; omega
    rw [hsi]
    rfl

theorem toNat_ofNat_row (n : Nat) (h : n < 4096) : (BitVec.ofNat 32 n).toNat = n := by
  rw [BitVec.toNat_ofNat]; exact Nat.mod_eq_of_lt (by omega)

open Idealize.ShloMosaic.StableHlo.Predicate in
/-- Row numbers are not negative, so the wrap-around of negative indices leaves them. -/
theorem call1_v4_at (p : S4096x1.Idx) : val_main_call1_v4 (F := Ideal) p = BitVec.ofNat 32 (p 0).val := by
  have hlt : (p 0).val < 4096 := (p 0).isLt
  have h35 : val_main_v35 (F := Ideal) p = BitVec.ofNat 32 (p 0).val := by
    rw [val_main_v35, bcastRow_apply, val_main_v33_apply]
  have h1 : IntOp.cmpi .slt (BitVec.ofNat 32 (p 0).val) 0#32 = 0#1 :=
    eq_zero_of_ne_one fun h => by
      have := (slt_iff_toNat (by rw [toNat_ofNat_row _ hlt]; omega) (by decide)).mp h
      simp at this
  rw [val_main_call1_v4_apply, val_main_call1_v1_apply, val_main_call1_v0, bcast0_apply, val_main_call1_c_apply, h35, h1, select_zero]

theorem call1_v5_at (j : S4096x1x1.Idx) :
    val_main_call1_v5 (F := Ideal) j = BitVec.ofNat 32 ((idx_main_call1_v5 j) 0).val := by
  rw [val_main_call1_v5_apply, call1_v4_at]

theorem call1_v5_row (i : Fin 4096) :
    val_main_call1_v5 (F := Ideal) (ix3 i (0 : Fin 1) (0 : Fin 1)) = BitVec.ofNat 32 i.val := by
  rw [call1_v5_at]
  congr 1
  show ((i.val * 1 + 0) * 1 + 0) / 1 = i.val
  omega

open Idealize.ShloMosaic.StableHlo.Predicate in
/-- 0 ≤ i ≤ 8191 for every row number i: the bounds mask is all ones. -/
theorem call1_v11_at (j : S4096x1x1.Idx) : val_main_call1_v11 (F := Ideal) j = 1#1 := by
  have hlt : ((idx_main_call1_v5 j) 0).val < 4096 := (idx_main_call1_v5 j 0).isLt
  have hn := toNat_ofNat_row _ hlt
  rw [val_main_call1_v11_apply, val_main_call1_v7_apply, val_main_call1_v10_apply, val_main_call1_v6, bcast0_apply,
    val_main_call1_c_2_apply, val_main_call1_v9_apply, val_main_call1_v8_apply, val_main_call1_c_1_apply, call1_v5_at,
    (sge_iff_toNat (by rw [hn]; omega) (by decide)).mpr (by simp),
    (sle_iff_toNat (by rw [hn]; omega) (by decide)).mpr (by rw [hn]; show _ ≤ 8191; omega)]
  rfl

theorem fold_andi_one {ι : Type} [DecidableEq ι] (S : Finset ι) (f : ι → BitVec 1) (hf : ∀ k, f k = 1#1) :
    S.fold IntOp.andi 1#1 f = 1#1 := by
  induction S using Finset.induction_on with
  | empty => rfl
  | insert a S ha ih => rw [Finset.fold_insert ha, ih, hf]; rfl

theorem call1_v12_at (p : S4096x1.Idx) : val_main_call1_v12 (F := Ideal) p = 1#1 := by
  unfold val_main_call1_v12
  rw [Host.reduce_eq_fold_single IntOp.andi _ _ reducesTo_S4096x1x1_S4096x1_d2 (by decide) h_S_]
  exact fold_andi_one _ _ fun k => call1_v11_at _

open Idealize.ShloMosaic.StableHlo.Predicate in
/-- Row i's start index is i, so the gather picks the diagonal. -/
theorem call1_v13_at (x0 x1 x2 : Arr) (i : Fin 4096) :
    val_main_call1_v13 (F := Ideal) x0 x1 x2 (ix2 i (0 : Fin 1))
      = val_main_v34 (F := Ideal) x0 x1 x2 (ix2 i (⟨i.val, by omega⟩ : Fin 8192)) := by
  unfold val_main_call1_v13
  refine (gather_at _ _ i).trans (congrArg _ (congrArg (ix2 i) (Fin.ext ?_)))
  show min (val_main_call1_v5 (F := Ideal) (ix3 i (0 : Fin 1) (0 : Fin 1))).toInt.toNat 8191 = i.val
  rw [call1_v5_row, toInt_ofNat_small _ (by omega), Int.toNat_natCast]
  exact Nat.min_eq_left (by omega)

theorem v36_at (x0 x1 x2 : Arr) (i : Fin 4096) :
    val_main_v36 (F := Ideal) x0 x1 x2 (ix2 i (0 : Fin 1))
      = (logit ε α x0 x1 x2 i ⟨i.val, by omega⟩ - rowMax ε α x0 x1 x2 i) - Ideal.log (rowSum ε α x0 x1 x2 i) := by
  rw [val_main_v36_apply, call1_v12_at, select_one, call1_v13_at, v34_at]

/-- Minus the mean of the picked entries is the loss. -/
theorem v39_eq (x0 x1 x2 : Arr) :
    val_main_v39 (F := Ideal) x0 x1 x2 = fun _ => lossRef ε α (Ideal.ofBits .f32 0x45800000#32) x0 x1 x2 := by
  funext j
  rw [val_main_v39_apply, val_main_v38_apply, val_main_v37_apply, val_main_cst_7_apply, val_main_cst_8_apply,
    Ideal.ofBits_def, Ideal.ofBits_zero_f32, zero_add, sum_idx2]
  simp only [Fin.sum_univ_one, v36_at, Ideal.hostNegf_def, Ideal.negf_def, Ideal.hostDivf_def, Ideal.ofBits_def]
  rfl

end Cert.RefVal

end
-- ==== Proof.RefLoss.lean ====
/-
  The reference's run read at its result: `B m c b` is what buffer b holds on core c after the 85 operations. No operation
  writes an argument, and the result is the last stage of the reference over the three arguments, which is the loss of
  the specification.
-/
import proofs.«135269_j55619826483436_2_alg».proof.Proof.RefOps
import proofs.«135269_j55619826483436_2_alg».proof.Proof.RefVal
import Idealize.ShloMosaic.Lib.Pipeline.Frame

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

def B (m : (ℓ : Loc nD τ sig) → Buf (Elt F) ℓ) (c : Dev nD) (b : Ref sig .tc) : Buf (Elt F) ((c.tc : Thread nD τ).loc b) :=
  StableHlo.after ops (launchContents m c) (Proc.devRef .tc b)

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = B m c b :=
  run_seq scopedRefs_eq scopedSems_eq defs main (fun _ => ops) main_eq (fun _ => ops_sub) m ρ

section
variable (V : Valuation τ sig (Elt F)) (x0 x1 x2 : (⟨S4096x256, .f32⟩ : BufTy).Contents (Elt F))

theorem after_args : StableHlo.after ops V (Proc.devRef .tc main_arg0) = V (Proc.devRef .tc main_arg0)
    ∧ StableHlo.after ops V (Proc.devRef .tc main_arg1) = V (Proc.devRef .tc main_arg1)
    ∧ StableHlo.after ops V (Proc.devRef .tc main_arg2) = V (Proc.devRef .tc main_arg2) := by
  refine ⟨?_, ?_, ?_⟩ <;> after_results_simp

/-- The first forty operations leave the two halves of the logits. -/
theorem run_a : StableHlo.after (ops.take 40) V (Proc.devRef .tc main_v27)
      = val_main_v27 (F := F) (V (Proc.devRef .tc main_arg0)) (V (Proc.devRef .tc main_arg1))
    ∧ StableHlo.after (ops.take 40) V (Proc.devRef .tc main_v31)
      = val_main_v27 (F := F) (V (Proc.devRef .tc main_arg0)) (V (Proc.devRef .tc main_arg2)) := by
  simp only [List.take]
  constructor <;> after_results_simp <;> rfl

theorem run_b (h27 : V (Proc.devRef .tc main_v27) = val_main_v27 (F := F) x0 x1)
    (h31 : V (Proc.devRef .tc main_v31) = val_main_v27 (F := F) x0 x2) :
    StableHlo.after ((ops.drop 40).take 1) V (Proc.devRef .tc main_v32) = val_main_v32 (F := F) x0 x1 x2 := by
  simp only [List.take, List.drop, after_cons, after_nil]
  rw [binary_result, h27, h31]
  rfl

/-- The log-softmax of the logits, and the row numbers the gather will start from. -/
theorem run_c (h32 : V (Proc.devRef .tc main_v32) = val_main_v32 (F := F) x0 x1 x2) :
    StableHlo.after ((ops.drop 41).take 16) V (Proc.devRef .tc main_v34) = val_main_v34 (F := F) x0 x1 x2
    ∧ StableHlo.after ((ops.drop 41).take 16) V (Proc.devRef .tc main_v33) = val_main_v33 (F := F) := by
  simp only [List.take, List.drop]
  constructor <;> after_results_simp
  · simp only [h32, TRef.ofBuf, TRef.toBuf, cast_eq]; rfl
  · rfl

theorem run_d (h34 : V (Proc.devRef .tc main_v34) = val_main_v34 (F := F) x0 x1 x2)
    (h33 : V (Proc.devRef .tc main_v33) = val_main_v33 (F := F)) :
    StableHlo.after (ops.drop 57) V (Proc.devRef .tc main_v39) = val_main_v39 (F := F) x0 x1 x2 := by
  simp only [List.drop]
  after_results_simp
  rw [h34, h33]
  rfl
end

variable (m : (ℓ : Loc nD τ sig) → Buf (Elt F) ℓ) (c : Dev nD)

theorem B_main_arg0 : B m c main_arg0 = m ((c.tc : Thread nD τ).loc main_arg0) := (after_args _).1
theorem B_main_arg1 : B m c main_arg1 = m ((c.tc : Thread nD τ).loc main_arg1) := (after_args _).2.1
theorem B_main_arg2 : B m c main_arg2 = m ((c.tc : Thread nD τ).loc main_arg2) := (after_args _).2.2

/-- The four stretches in a row are the whole line. -/
theorem B_main_v39 : B m c main_v39 = val_main_v39 (F := F) (m ((c.tc : Thread nD τ).loc main_arg0))
    (m ((c.tc : Thread nD τ).loc main_arg1)) (m ((c.tc : Thread nD τ).loc main_arg2)) := by
  have e : ops (F := F) = ops.take 40 ++ ((ops.drop 40).take 1 ++ ((ops.drop 41).take 16 ++ ops.drop 57)) := rfl
  unfold B
  rw [e, after_append, after_append, after_append]
  have a := run_a (launchContents m c)
  have b := run_c _ _ _ _ (run_b _ _ _ _ a.1 a.2)
  exact run_d _ _ _ _ b.1 b.2

end Cert.ReferenceIdeal.ValueP

namespace Cert.RefLoss

open Cert.ReferenceIdeal Cert.ReferenceIdeal.Gen Idealize.ShloMosaic Idealize.ShloMosaic.TcCoe Idealize.SL.Sem

theorem ref_result (m : (ℓ : Loc nD τ sig) → Buf (Elt Ideal) ℓ) (c : Dev nD) :
    Cert.ReferenceIdeal.ValueP.B (F := Ideal) m c main_v39
      = fun _ => Cert.InfoNCE.lossRef (Ideal.ofBits .f32 0x2B8CBCCC#32) (((268435456 / 13421773 : ℝ)) : EReal) (Ideal.ofBits .f32 0x45800000#32)
          (m ((c.tc : Thread nD τ).loc main_arg0)) (m ((c.tc : Thread nD τ).loc main_arg1)) (m ((c.tc : Thread nD τ).loc main_arg2)) :=
  (Cert.ReferenceIdeal.ValueP.B_main_v39 m c).trans (Cert.RefVal.v39_eq _ _ _)

end Cert.RefLoss

end
-- ==== Proof.OnlineMath.lean ====
import proofs.«135269_j55619826483436_2_alg».proof.Proof.Spec

noncomputable section

namespace Cert.InfoNCE

open Idealize.ShloMosaic Idealize.ShloMosaic.ValueIdx

def IsReal (x : EReal) : Prop := x ≠ ⊤ ∧ x ≠ ⊥

theorem isReal_coe (r : ℝ) : IsReal (r : EReal) := ⟨EReal.coe_ne_top r, EReal.coe_ne_bot r⟩

theorem isReal_iff_exists (x : EReal) : IsReal x ↔ ∃ r : ℝ, x = (r : EReal) := by
  constructor
  · rintro ⟨h1, h2⟩
    exact ⟨x.toReal, (EReal.coe_toReal h1 h2).symm⟩
  · rintro ⟨r, rfl⟩
    exact isReal_coe r

theorem IsReal.coe_toReal {x : EReal} (h : IsReal x) : ((x.toReal : ℝ) : EReal) = x :=
  EReal.coe_toReal h.1 h.2

theorem coe_finset_sum {ι : Type*} (s : Finset ι) (g : ι → ℝ) :
    ((∑ j ∈ s, g j : ℝ) : EReal) = ∑ j ∈ s, (g j : EReal) := by
  classical
  refine Finset.induction_on s (by simp) ?_
  intro a s ha ih
  rw [Finset.sum_insert ha, Finset.sum_insert ha, EReal.coe_add, ih]

theorem IsReal.mul {x y : EReal} (hx : IsReal x) (hy : IsReal y) : IsReal (x * y) := by
  obtain ⟨r, rfl⟩ := (isReal_iff_exists x).1 hx
  obtain ⟨s, rfl⟩ := (isReal_iff_exists y).1 hy
  rw [← EReal.coe_mul]
  exact isReal_coe _

theorem sum_eq_coe {ι : Type*} (s : Finset ι) (F : ι → EReal) (hF : ∀ j ∈ s, IsReal (F j)) :
    ∑ j ∈ s, F j = ((∑ j ∈ s, (F j).toReal : ℝ) : EReal) := by
  rw [coe_finset_sum]
  exact Finset.sum_congr rfl fun j hj => ((hF j hj).coe_toReal).symm

theorem isReal_sum {ι : Type*} (s : Finset ι) (F : ι → EReal) (hF : ∀ j ∈ s, IsReal (F j)) :
    IsReal (∑ j ∈ s, F j) := by
  rw [sum_eq_coe s F hF]
  exact isReal_coe _

theorem isReal_sup {ι : Type*} (s : Finset ι) (hs : s.Nonempty) (F : ι → EReal) (hF : ∀ j ∈ s, IsReal (F j)) :
    IsReal (s.sup F) := by
  constructor
  · exact ne_of_lt ((Finset.sup_lt_iff bot_lt_top).2 fun j hj => lt_top_iff_ne_top.2 (hF j hj).1)
  · obtain ⟨j, hj⟩ := hs
    exact ne_of_gt (lt_of_lt_of_le (bot_lt_iff_ne_bot.2 (hF j hj).2) (Finset.le_sup hj))

theorem exp_sub_coe {x : EReal} (hx : IsReal x) (c : ℝ) :
    Ideal.exp (x - (c : EReal)) = ((Real.exp (x.toReal - c) : ℝ) : EReal) := by
  obtain ⟨r, rfl⟩ := (isReal_iff_exists x).1 hx
  rw [EReal.toReal_coe, ← EReal.coe_sub, Ideal.exp_coe]

/-- Moving the reference point of a sum of exponentials of real terms from `M` to `m'` multiplies it by `exp (M − m')`. -/
theorem rescale_sum {ι : Type*} (s : Finset ι) (f : ι → EReal) (hf : ∀ j ∈ s, IsReal (f j)) (M m' : EReal)
    (hM : s.Nonempty → IsReal M) (hm' : IsReal m') :
    Ideal.exp (M - m') * ∑ j ∈ s, Ideal.exp (f j - M) = ∑ j ∈ s, Ideal.exp (f j - m') := by
  rcases s.eq_empty_or_nonempty with rfl | hs
  · simp
  · obtain ⟨a, rfl⟩ := (isReal_iff_exists M).1 (hM hs)
    obtain ⟨b, rfl⟩ := (isReal_iff_exists m').1 hm'
    rw [Finset.sum_congr rfl fun j hj => exp_sub_coe (hf j hj) a,
      Finset.sum_congr rfl fun j hj => exp_sub_coe (hf j hj) b, ← coe_finset_sum, ← coe_finset_sum,
      ← EReal.coe_sub, Ideal.exp_coe, ← EReal.coe_mul, Finset.mul_sum]
    congr 1
    refine Finset.sum_congr rfl fun j _ => ?_
    rw [← Real.exp_add]
    congr 1
    ring

def cols (n : ℕ) : Finset (Fin 8192) := Finset.univ.filter fun j => j.val < 1024 * n

def blkCol (n : ℕ) (h : n < 8) (c : Fin 1024) : Fin 8192 := ⟨1024 * n + c.val, by omega⟩

theorem blkCol_injective (n : ℕ) (h : n < 8) : Function.Injective (blkCol n h) := by
  intro c d hcd
  have := congrArg Fin.val hcd
  simp only [blkCol] at this
  exact Fin.ext (by omega)

theorem cols_zero : cols 0 = ∅ := by
  simp [cols]

theorem cols_eight : cols 8 = Finset.univ := by
  refine Finset.filter_true_of_mem fun j _ => ?_
  have := j.isLt
  omega

theorem cols_succ (n : ℕ) (h : n < 8) : cols (n + 1) = cols n ∪ Finset.univ.image (blkCol n h) := by
  ext j
  simp only [cols, Finset.mem_filter, Finset.mem_univ, true_and, Finset.mem_union, Finset.mem_image]
  constructor
  · intro hj
    by_cases hlt : j.val < 1024 * n
    · exact Or.inl hlt
    · exact Or.inr ⟨⟨j.val - 1024 * n, by omega⟩, Fin.ext (by simp only [blkCol]; omega)⟩
  · rintro (hlt | ⟨c, rfl⟩)
    · omega
    · have := c.isLt
      simp only [blkCol]
      omega

theorem cols_disjoint (n : ℕ) (h : n < 8) : Disjoint (cols n) (Finset.univ.image (blkCol n h)) := by
  rw [Finset.disjoint_left]
  intro j hj hj'
  simp only [cols, Finset.mem_filter, Finset.mem_univ, true_and] at hj
  obtain ⟨c, _, rfl⟩ := Finset.mem_image.1 hj'
  simp only [blkCol] at hj
  omega

theorem cols_succ_nonempty (n : ℕ) : (cols (n + 1)).Nonempty :=
  ⟨⟨0, by omega⟩, by simp [cols]⟩

theorem blk_eq (f : Fin 8192 → EReal) (n : ℕ) (h : n < 8) (c : Fin 1024) : blk f ⟨n, h⟩ c = f (blkCol n h c) := rfl

theorem sup_cols_succ (f : Fin 8192 → EReal) (n : ℕ) (h : n < 8) :
    (cols (n + 1)).sup f = max ((cols n).sup f) (Finset.univ.sup (blk f ⟨n, h⟩)) := by
  rw [cols_succ n h, Finset.sup_union, Finset.sup_image]
  rfl

theorem sum_cols_succ (F : Fin 8192 → EReal) (n : ℕ) (h : n < 8) :
    ∑ j ∈ cols (n + 1), F j = ∑ j ∈ cols n, F j + ∑ c : Fin 1024, F (blkCol n h c) := by
  rw [cols_succ n h, Finset.sum_union (cols_disjoint n h),
    Finset.sum_image fun c _ d _ hcd => blkCol_injective n h hcd]

theorem online_succ (f : Fin 8192 → EReal) (n : ℕ) (h : n + 1 ≤ 8) :
    online f (n + 1) h =
      (max (online f n (Nat.le_of_succ_le h)).1 (Finset.univ.sup (blk f ⟨n, h⟩)),
        Ideal.exp ((online f n (Nat.le_of_succ_le h)).1
            - max (online f n (Nat.le_of_succ_le h)).1 (Finset.univ.sup (blk f ⟨n, h⟩)))
          * (online f n (Nat.le_of_succ_le h)).2
        + ∑ c : Fin 1024, Ideal.exp (blk f ⟨n, h⟩ c
            - max (online f n (Nat.le_of_succ_le h)).1 (Finset.univ.sup (blk f ⟨n, h⟩)))) := rfl

/-- After `n` blocks the running pair is the maximum over the first `1024 n` columns and the sum of exponentials shifted by it. -/
theorem online_inv (f : Fin 8192 → EReal) (hf : ∀ j, IsReal (f j)) :
    ∀ (n : ℕ) (h : n ≤ 8),
      online f n h = ((cols n).sup f, ∑ j ∈ cols n, Ideal.exp (f j - (cols n).sup f)) := by
  intro n
  induction n with
  | zero =>
    intro h
    rw [cols_zero]
    rfl
  | succ n ih =>
    intro h
    rw [online_succ, ih (Nat.le_of_succ_le h)]
    simp only []
    rw [← sup_cols_succ f n h]
    refine Prod.ext rfl ?_
    simp only []
    rw [rescale_sum (cols n) f (fun j _ => hf j) _ _
        (fun hne => isReal_sup _ hne f fun j _ => hf j)
        (isReal_sup _ (cols_succ_nonempty n) f fun j _ => hf j),
      sum_cols_succ (fun j => Ideal.exp (f j - (cols (n + 1)).sup f)) n h]
    rfl

theorem online_eq (f : Fin 8192 → EReal) (hf : ∀ j, IsReal (f j)) :
    online f 8 le_rfl = (Finset.univ.sup f, ∑ j : Fin 8192, Ideal.exp (f j - Finset.univ.sup f)) := by
  rw [online_inv f hf 8 le_rfl, cols_eight]

theorem nrm_pos (ε : EReal) (x : Rows) (e : ℝ) (he : 0 < e) (hε : ε = (e : EReal)) (hx : ∀ i, IsReal (x i))
    (i : Fin 4096) : ∃ t : ℝ, 0 < t ∧ nrm ε x i = (t : EReal) := by
  have hsq : ∀ k ∈ (Finset.univ : Finset (Fin 256)), IsReal (x (ix2 i k) * x (ix2 i k)) :=
    fun k _ => (hx _).mul (hx _)
  have hnn : 0 ≤ ∑ k : Fin 256, (x (ix2 i k) * x (ix2 i k)).toReal := by
    refine Finset.sum_nonneg fun k _ => ?_
    obtain ⟨r, hr⟩ := (isReal_iff_exists _).1 (hx (ix2 i k))
    rw [hr, ← EReal.coe_mul, EReal.toReal_coe]
    exact mul_self_nonneg r
  refine ⟨max (Real.sqrt (∑ k : Fin 256, (x (ix2 i k) * x (ix2 i k)).toReal)) e,
    lt_of_lt_of_le he (le_max_right _ _), ?_⟩
  unfold nrm
  rw [sum_eq_coe _ _ hsq, Ideal.sqrt_coe, if_neg (not_lt.2 hnn), hε]
  exact (EReal.coe_strictMono.monotone.map_max).symm

theorem unitv_isReal (ε : EReal) (x : Rows) (e : ℝ) (he : 0 < e) (hε : ε = (e : EReal)) (hx : ∀ i, IsReal (x i))
    (i : Fin 4096) (k : Fin 256) : IsReal (unitv ε x i k) := by
  obtain ⟨t, ht, hn⟩ := nrm_pos ε x e he hε hx i
  unfold unitv
  rw [hn, Ideal.div_coe (ne_of_gt ht)]
  exact (hx _).mul (isReal_coe _)

theorem sim_isReal (ε α : EReal) (x y : Rows) (e a : ℝ) (he : 0 < e) (hε : ε = (e : EReal)) (hα : α = (a : EReal))
    (hx : ∀ i, IsReal (x i)) (hy : ∀ i, IsReal (y i)) (i j : Fin 4096) : IsReal (sim ε α x y i j) := by
  unfold sim
  rw [hα]
  exact (isReal_sum _ _ fun k _ =>
    (unitv_isReal ε x e he hε hx i k).mul (unitv_isReal ε y e he hε hy j k)).mul (isReal_coe a)

theorem logit_isReal (ε α : EReal) (x1 x2 x3 : Rows) (e a : ℝ) (he : 0 < e) (hε : ε = (e : EReal)) (hα : α = (a : EReal))
    (h1 : ∀ i, IsReal (x1 i)) (h2 : ∀ i, IsReal (x2 i)) (h3 : ∀ i, IsReal (x3 i)) (i : Fin 4096) (j : Fin 8192) :
    IsReal (logit ε α x1 x2 x3 i j) := by
  unfold logit
  split
  · exact sim_isReal ε α x1 x2 e a he hε hα h1 h2 _ _
  · exact sim_isReal ε α x1 x3 e a he hε hα h1 h3 _ _

theorem sub_add_log_eq (f : Fin 8192 → EReal) (hf : ∀ j, IsReal (f j)) (d : EReal) (hd : IsReal d) :
    d - (Finset.univ.sup f + Ideal.log (∑ j : Fin 8192, Ideal.exp (f j - Finset.univ.sup f)))
      = (d - Finset.univ.sup f) - Ideal.log (∑ j : Fin 8192, Ideal.exp (f j - Finset.univ.sup f)) := by
  obtain ⟨m, hm⟩ := (isReal_iff_exists _).1 (isReal_sup Finset.univ Finset.univ_nonempty f fun j _ => hf j)
  obtain ⟨d', rfl⟩ := (isReal_iff_exists d).1 hd
  have hL : 0 < ∑ j : Fin 8192, Real.exp ((f j).toReal - m) :=
    Finset.sum_pos (fun j _ => Real.exp_pos _) Finset.univ_nonempty
  rw [hm, Finset.sum_congr rfl fun j _ => exp_sub_coe (hf j) m, ← coe_finset_sum, Ideal.log_coe,
    if_neg (not_le.2 hL), ← EReal.coe_add, ← EReal.coe_sub, ← EReal.coe_sub, ← EReal.coe_sub]
  congr 1
  ring

/-- Finite inputs make every logit real, and then `d − (m + log l) = (d − m) − log l` row by row. -/
theorem lossOnline_eq_lossRef (ε α n : EReal) (x1 x2 x3 : Rows) (e a : ℝ) (he : 0 < e) (hε : ε = (e : EReal))
    (hα : α = (a : EReal)) (h1 : ∀ i, IsReal (x1 i)) (h2 : ∀ i, IsReal (x2 i)) (h3 : ∀ i, IsReal (x3 i)) :
    lossOnline ε α n x1 x2 x3 = lossRef ε α n x1 x2 x3 := by
  have hf : ∀ i j, IsReal (logit ε α x1 x2 x3 i j) :=
    fun i j => logit_isReal ε α x1 x2 x3 e a he hε hα h1 h2 h3 i j
  unfold lossOnline lossRef
  refine congrArg (fun s => -(Ideal.div s n)) (Finset.sum_congr rfl fun i _ => ?_)
  rw [online_eq _ (hf i)]
  exact sub_add_log_eq _ (hf i) _ (hf i _)

theorem eps_real : ∃ e : ℝ, 0 < e ∧ Ideal.ofBits .f32 0x2B8CBCCC#32 = (e : EReal) := by
  refine ⟨9223372 * (2 : ℝ) ^ (-63 : ℤ), by positivity, ?_⟩
  simp [Ideal.ofBits, Ideal.ieee]

end Cert.InfoNCE

end
-- ==== Proof.FiniteInputs.lean ====
import proofs.«135269_j55619826483436_2_alg».proof.Pre_finite_inputs
import proofs.«135269_j55619826483436_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

namespace Cert.FiniteInputs

open Idealize.ShloMosaic
open Cert.Pre_finite_inputs (S4096x256 S_)

theorem ne_top_bot_of_abs_lt_top (x : EReal) (h : max x (-x) < ⊤) : x ≠ ⊤ ∧ x ≠ ⊥ := by
  constructor
  · rintro rfl; simp at h
  · rintro rfl; simp at h

instance : Subsingleton S_.Idx := ⟨fun a b => funext fun d => d.elim0⟩

theorem ofBool_eq_one {b : Bool} : BitVec.ofBool b = 1#1 ↔ b = true := by cases b <;> decide

theorem ofBits_inf : Ideal.ofBits .f32 0x7F800000#32 = ⊤ := by simp [Ideal.ofBits, Ideal.ieee]

theorem real_of_all (x : FVec Ideal S4096x256 .f32)
    (hb : S_.BroadcastsInDim S4096x256 (![] : Fin 0 → Fin S4096x256.rank))
    (hr : S4096x256.ReducesTo [0, 1] S_) (hu : 0 < S_.numel) (j : S_.Idx)
    (e : Host.reduce IntOp.andi
          (cmpf .olt (Host.absf x) (broadcastInDim S4096x256 ![] hb (constant S_ .f32 0x7F800000#32)))
          (constantI S_ 1 1#1) hr hu j = 1#1)
    (i : S4096x256.Idx) : x i ≠ ⊤ ∧ x i ≠ ⊥ := by
  have hi := Host.reduce_andi_all _ _ hr hu j e i
  have hc : Ideal.cmp .olt (max (x i) (-(x i))) (Ideal.ofBits .f32 0x7F800000#32) = 1#1 := hi
  rw [ofBits_inf] at hc
  have hlt : max (x i) (-(x i)) < ⊤ := by simpa only [Ideal.cmp, ofBool_eq_one, decide_eq_true_eq] using hc
  exact ne_top_bot_of_abs_lt_top _ hlt

theorem real_of_pre (x1 x2 x3 : FVec Ideal Cert.Pre_finite_inputs.S4096x256 .f32)
    (h : Cert.Pre_finite_inputs.fn (F := Ideal) x1 x2 x3 = (fun _ => 1#1)) :
    (∀ i, x1 i ≠ ⊤ ∧ x1 i ≠ ⊥) ∧ (∀ i, x2 i ≠ ⊤ ∧ x2 i ≠ ⊥) ∧ (∀ i, x3 i ≠ ⊤ ∧ x3 i ≠ ⊥) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨real_of_all x1 _ _ _ _ h1, real_of_all x2 _ _ _ _ h2, real_of_all x3 _ _ _ _ h3⟩

end Cert.FiniteInputs
-- ==== Proof.lean ====
/-
  The InfoNCE loss of three arrays of 4096 rows is minus the mean over the rows of logit(i, i) − log Σ_j exp logit(i, j);
  both programs compute it. The reference shifts a whole row by its maximum; the kernel walks the 8192
  columns in eight blocks with a running maximum and a running sum rescaled to it. With finite inputs every logit is
  a real number and the two arrangements are equal. The kernel and its idealization differ in one named constant, so
  one frame proof, made for every reading of the floats, serves both.
-/
import proofs.«135269_j55619826483436_2_alg».proof.Defs
import proofs.«135269_j55619826483436_2_alg».proof.Proof.Gen.Kernel
import proofs.«135269_j55619826483436_2_alg».proof.Proof.Gen.KernelIdeal
import proofs.«135269_j55619826483436_2_alg».proof.Proof.Gen.ReferenceIdeal
import proofs.«135269_j55619826483436_2_alg».proof.Proof.Gen.Pre_finite_inputs
import proofs.«135269_j55619826483436_2_alg».proof.Proof.KernelIdealResult
import proofs.«135269_j55619826483436_2_alg».proof.Proof.RefLoss
import proofs.«135269_j55619826483436_2_alg».proof.Proof.OnlineMath
import proofs.«135269_j55619826483436_2_alg».proof.Proof.FiniteInputs
import Idealize.ShloMosaic.PureOps.IdealRules

noncomputable section

namespace Cert.Proof

open Idealize.ShloMosaic Idealize.ShloMosaic.TcCoe Idealize.SL.Sem

/-- A named constant read as its bit pattern. -/
local instance : Named Bits := ⟨fun _ _ {φ} bits => Scalar.ofBits φ bits⟩

/-- Under that reading the kernel and its idealization run the same bodies. -/
theorem defs₀_eq : Cert.Kernel.defs₀ (F := Bits) = Cert.KernelIdeal.defs₀ (F := Bits) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs Cert.KernelIdeal.pcfgs) defs₀_eq

/-- So the kernel's frame is the idealized kernel's, which was proved for every reading of the floats. -/
theorem frame_k : Cert.frame_Kernel := fun m ρ _ => by
  have h := Cert.KernelIdeal.GenP.frame (F := Bits) m ρ
  rw [← defs_eq] at h
  exact h

theorem frame_ki : Cert.frame_KernelIdeal := fun m ρ _ => Cert.KernelIdeal.GenP.frame m ρ

theorem frame_ri : Cert.frame_ReferenceIdeal := fun m ρ _ =>
  (θ_run Cert.ReferenceIdeal.defs _ _).mono
    (fun _ h c => ⟨(h c Cert.ReferenceIdeal.main_arg0).trans (Cert.ReferenceIdeal.ValueP.B_main_arg0 m c),
      (h c Cert.ReferenceIdeal.main_arg1).trans (Cert.ReferenceIdeal.ValueP.B_main_arg1 m c),
      (h c Cert.ReferenceIdeal.main_arg2).trans (Cert.ReferenceIdeal.ValueP.B_main_arg2 m c)⟩)
    (Cert.ReferenceIdeal.ValueP.run_after (F := Ideal) m ρ)

/-- The scale carries the name 268435456/13421773, the exact reciprocal of the float constant 13421773 · 2⁻²⁸ the reference divides by. -/
theorem preserves : Cert.preserves_Kernel_KernelIdeal :=
  IdealRules.named_const.statement Cert.KernelIdeal.κ "fold_c_268435456_13421773" .f32 0x41A00000#32
    ((268435456 / 13421773 : ℝ) : EReal) rfl

/-- Kernel: the loss in its running arrangement; reference: in the plain one; equal once every logit is real. -/
theorem algebraic : Cert.algebraic_KernelIdeal_ReferenceIdeal := by
  intro m ρ m' ρ' hpre hagree
  refine ⟨fun c => fun _ => Cert.InfoNCE.lossOnline Cert.KernelIdeal.StepAt.ε Cert.KernelIdeal.StepAt.α
      (Ideal.ofBits .f32 0x45800000#32) (Cert.KernelIdeal.Blocks.X1 m c) (Cert.KernelIdeal.Blocks.X2 m c)
      (Cert.KernelIdeal.Blocks.X3 m c), Cert.KernelIdeal.ResultK.kernel_run m ρ, ?_⟩
  refine (θ_run Cert.ReferenceIdeal.defs _ _).mono (fun r h c =>
    ⟨?_, (h c Cert.ReferenceIdeal.main_arg0).trans (Cert.ReferenceIdeal.ValueP.B_main_arg0 m' c),
      (h c Cert.ReferenceIdeal.main_arg1).trans (Cert.ReferenceIdeal.ValueP.B_main_arg1 m' c),
      (h c Cert.ReferenceIdeal.main_arg2).trans (Cert.ReferenceIdeal.ValueP.B_main_arg2 m' c)⟩)
    (Cert.ReferenceIdeal.ValueP.run_after (F := Ideal) m' ρ')
  rw [h c Cert.ReferenceIdeal.main_v39, Cert.RefLoss.ref_result m' c, (hagree c).1, (hagree c).2.1, (hagree c).2.2]
  obtain ⟨r1, r2, r3⟩ := Cert.FiniteInputs.real_of_pre _ _ _ (hpre c)
  obtain ⟨e, he, hε⟩ := Cert.InfoNCE.eps_real
  funext _
  rw [Cert.KernelIdeal.StepAt.alpha_eq]
  exact (Cert.InfoNCE.lossOnline_eq_lossRef _ _ _ _ _ _ e (268435456 / 13421773) he hε rfl r1 r2 r3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
